-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x5000 : S_.BroadcastsInDim S10000x5000 (![] : Fin 0 → Fin S10000x5000.rank)
  reducesTo_S10000x5000_S_d0_1 : S10000x5000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x5000 .f32) (main_arg2 : FVec F S128x128 .f32) (main_arg3 : FVec F S128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x5000 .f32 := Host.absf main_arg1
  let main_cst_0 : FVec F S_ .f32 := constant S_ .f32 0x7F800000#32
  let main_v5 : FVec F S10000x5000 .f32 := broadcastInDim S10000x5000 ![] bcast_S_S10000x5000 main_cst_0
  let main_v6 : IVec S10000x5000 1 := cmpf .olt main_v4 main_v5
  let main_c_1 : IVec S_ 1 := constantI S_ 1 1#1
  let main_v7 : IVec S_ 1 := (fun x v => Host.reduce IntOp.andi x v reducesTo_S10000x5000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S1x128 : Shape := ⟨2, ![1, 128]⟩
abbrev S129x5000 : Shape := ⟨2, ![129, 5000]⟩
abbrev S200x128 : Shape := ⟨2, ![200, 128]⟩
abbrev S200x5000 : Shape := ⟨2, ![200, 5000]⟩
abbrev S200 : Shape := ⟨1, ![200]⟩
abbrev S200x1 : Shape := ⟨2, ![200, 1]⟩
abbrev S200x129 : Shape := ⟨2, ![200, 129]⟩
abbrev S200x1280 : Shape := ⟨2, ![200, 1280]⟩
abbrev S129x1280 : Shape := ⟨2, ![129, 1280]⟩
abbrev S200x1160 : Shape := ⟨2, ![200, 1160]⟩
abbrev S129x1160 : Shape := ⟨2, ![129, 1160]⟩
abbrev S1000x128 : Shape := ⟨2, ![1000, 128]⟩
abbrev S128x5000 : Shape := ⟨2, ![128, 5000]⟩
abbrev S1x5000 : Shape := ⟨2, ![1, 5000]⟩

abbrev nBuf : Space → Nat
  | .hbm => 11
  | .vmem => 39
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S129x5000, .f32⟩
  | .hbm, ⟨10, _⟩ => ⟨S10000x128, .f32⟩
  | .local _ .vmem, ⟨0, _⟩ => ⟨S200x128, .f32⟩
  | .local _ .vmem, ⟨1, _⟩ => ⟨S200x128, .f32⟩
  | .local _ .vmem, ⟨2, _⟩ => ⟨S200x128, .f32⟩
  | .local _ .vmem, ⟨3, _⟩ => ⟨S200x128, .f32⟩
  | .local _ .vmem, ⟨4, _⟩ => ⟨S200x128, .f32⟩
  | .local _ .vmem, ⟨5, _⟩ => ⟨S200x128, .f32⟩
  | .local _ .vmem, ⟨6, _⟩ => ⟨S200x128, .f32⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S200x5000, .f32⟩
  | .local _ .vmem, ⟨11, _⟩ => ⟨S200x5000, .f32⟩
  | .local _ .vmem, ⟨12, _⟩ => ⟨S200x5000, .f32⟩
  | .local _ .vmem, ⟨13, _⟩ => ⟨S200x5000, .f32⟩
  | .local _ .vmem, ⟨14, _⟩ => ⟨S200x5000, .f32⟩
  | .local _ .vmem, ⟨15, _⟩ => ⟨S200x5000, .f32⟩
  | .local _ .vmem, ⟨16, _⟩ => ⟨S200x5000, .f32⟩
  | .local _ .vmem, ⟨17, _⟩ => ⟨S200x5000, .f32⟩
  | .local _ .vmem, ⟨18, _⟩ => ⟨S200x5000, .f32⟩
  | .local _ .vmem, ⟨19, _⟩ => ⟨S200x5000, .f32⟩
  | .local _ .vmem, ⟨20, _⟩ => ⟨S128x128, .f32⟩
  | .local _ .vmem, ⟨21, _⟩ => ⟨S1x128, .f32⟩
  | .local _ .vmem, ⟨22, _⟩ => ⟨S129x5000, .f32⟩
  | .local _ .vmem, ⟨23, _⟩ => ⟨S200x5000, .f32⟩
  | .local _ .vmem, ⟨24, _⟩ => ⟨S200x5000, .f32⟩
  | .local _ .vmem, ⟨25, _⟩ => ⟨S200x5000, .f32⟩
  | .local _ .vmem, ⟨26, _⟩ => ⟨S200x5000, .f32⟩
  | .local _ .vmem, ⟨27, _⟩ => ⟨S200x5000, .f32⟩
  | .local _ .vmem, ⟨28, _⟩ => ⟨S200x5000, .f32⟩
  | .local _ .vmem, ⟨29, _⟩ => ⟨S200x5000, .f32⟩
  | .local _ .vmem, ⟨30, _⟩ => ⟨S200x5000, .f32⟩
  | .local _ .vmem, ⟨31, _⟩ => ⟨S200x5000, .f32⟩
  | .local _ .vmem, ⟨32, _⟩ => ⟨S200x5000, .f32⟩
  | .local _ .vmem, ⟨33, _⟩ => ⟨S129x5000, .f32⟩
  | .local _ .vmem, ⟨34, _⟩ => ⟨S1x128, .f32⟩
  | .local _ .vmem, ⟨35, _⟩ => ⟨S1x128, .f32⟩
  | .local _ .vmem, ⟨36, _⟩ => ⟨S1000x128, .f32⟩
  | .local _ .vmem, ⟨37, _⟩ => ⟨S1000x128, .f32⟩
  | .local _ .vmem, ⟨38, _⟩ => ⟨S128x5000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg8_1 : Ref sig .tc := ⟨.vmem, 37, rfl⟩
abbrev cc1_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem8_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x5000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x5000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x5000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S200x5000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S200x5000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S129x5000 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x5000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x5000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x5000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x5000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S129x5000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S128_S1x128 : S128.ShapeCasts S1x128
  inb_S129x5000_S129x5000_0_0 : ∀ a, (![0, 0] : Fin 2 → Nat) a + S129x5000.size a ≤ S129x5000.size a
  h_S129x5000 : 0 < S129x5000.numel
  inb_S200x128_S200x128_0_0 : ∀ a, (![0, 0] : Fin 2 → Nat) a + S200x128.size a ≤ S200x128.size a
  h_S200x128 : 0 < S200x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x5000_S200x5000_0_0 : ∀ a, (![0, 0] : Fin 2 → Nat) a + S200x5000.size a ≤ S200x5000.size a
  h_S200x5000 : 0 < S200x5000.numel
  reduces_S200x5000_S200 : S200x5000.Reduces [1] S200
  shapeCasts_S200_S200x1 : S200.ShapeCasts S200x1
  broadcasts_S200x1_S200x128 : S200x1.Broadcasts S200x128
  concatenates_S200x128_S200x1_S200x129_d1 : Shape.Concatenates [S200x128, S200x1] S200x129 1
  inb_S200x5000_S200x1280_0_0 : ∀ a, (![0, 0] : Fin 2 → Nat) a + S200x1280.size a ≤ S200x5000.size a
  h_S200x1280 : 0 < S200x1280.numel
  inb_S129x5000_S129x1280_0_0 : ∀ a, (![0, 0] : Fin 2 → Nat) a + S129x1280.size a ≤ S129x5000.size a
  h_S129x1280 : 0 < S129x1280.numel
  shapeCasts_S129x1280_S129x1280 : S129x1280.ShapeCasts S129x1280
  inb_S200x5000_S200x1280_0_1280 : ∀ a, (![0, 1280] : Fin 2 → Nat) a + S200x1280.size a ≤ S200x5000.size a
  inb_S129x5000_S129x1280_0_1280 : ∀ a, (![0, 1280] : Fin 2 → Nat) a + S129x1280.size a ≤ S129x5000.size a
  inb_S200x5000_S200x1280_0_2560 : ∀ a, (![0, 2560] : Fin 2 → Nat) a + S200x1280.size a ≤ S200x5000.size a
  inb_S129x5000_S129x1280_0_2560 : ∀ a, (![0, 2560] : Fin 2 → Nat) a + S129x1280.size a ≤ S129x5000.size a
  inb_S200x5000_S200x1160_0_3840 : ∀ a, (![0, 3840] : Fin 2 → Nat) a + S200x1160.size a ≤ S200x5000.size a
  h_S200x1160 : 0 < S200x1160.numel
  inb_S129x5000_S129x1160_0_3840 : ∀ a, (![0, 3840] : Fin 2 → Nat) a + S129x1160.size a ≤ S129x5000.size a
  h_S129x1160 : 0 < S129x1160.numel
  shapeCasts_S129x1160_S129x1160 : S129x1160.ShapeCasts S129x1160
  inb_S129x5000_S1x5000_128_0 : ∀ a, (![128, 0] : Fin 2 → Nat) a + S1x5000.size a ≤ S129x5000.size a
  h_S1x5000 : 0 < S1x5000.numel
  shapeCasts_S1x5000_S1x5000 : S1x5000.ShapeCasts S1x5000
  inb_S129x5000_S128x5000_0_0 : ∀ a, (![0, 0] : Fin 2 → Nat) a + S128x5000.size a ≤ S129x5000.size a
  h_S128x5000 : 0 < S128x5000.numel
  shapeCasts_S128x5000_S128x5000 : S128x5000.ShapeCasts S128x5000
  broadcasts_S1x5000_S128x5000 : S1x5000.Broadcasts S128x5000
  inb_S128x5000_S128x5000_0_0 : ∀ a, (![0, 0] : Fin 2 → Nat) a + S128x5000.size a ≤ S128x5000.size a
  reduces_S200x128_S200 : S200x128.Reduces [1] S200
  inb_S1000x128_S200x128_0_0 : ∀ a, (![0, 0] : Fin 2 → Nat) a + S200x128.size a ≤ S1000x128.size a
  inb_S1000x128_S200x128_200_0 : ∀ a, (![200, 0] : Fin 2 → Nat) a + S200x128.size a ≤ S1000x128.size a
  inb_S1000x128_S200x128_400_0 : ∀ a, (![400, 0] : Fin 2 → Nat) a + S200x128.size a ≤ S1000x128.size a
  inb_S1000x128_S200x128_600_0 : ∀ a, (![600, 0] : Fin 2 → Nat) a + S200x128.size a ≤ S1000x128.size a
  inb_S1000x128_S200x128_800_0 : ∀ a, (![800, 0] : Fin 2 → Nat) a + S200x128.size a ≤ S1000x128.size a
  dot_S200x128_S128x128_S200x128_1_0_0_1_n_n_wf : DotDims.WF S200x128 S128x128 S200x128 [1] [0] [0] [1] [] []
  dot_S200x129_S200x1280_S129x1280_0_0_1_1_n_n_wf : DotDims.WF S200x129 S200x1280 S129x1280 [0] [0] [1] [1] [] []
  dot_S200x129_S200x1160_S129x1160_0_0_1_1_n_n_wf : DotDims.WF S200x129 S200x1160 S129x1160 [0] [0] [1] [1] [] []
  dot_S200x5000_S128x5000_S200x128_1_1_0_0_n_n_wf : DotDims.WF S200x5000 S128x5000 S200x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S10000x128.size a
  hwx0_0 : ∀ i : grid0.Coords, EltTy.bits .f32 = 32 ∨ (Rect.block (s := S10000x128) S200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S10000x128.size a
  hwx0_1 : ∀ i : grid0.Coords, EltTy.bits .f32 = 32 ∨ (Rect.block (s := S10000x128) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S10000x128.size a
  hwx0_2 : ∀ i : grid0.Coords, EltTy.bits .f32 = 32 ∨ (Rect.block (s := S10000x128) S200x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x5000.size a ≤ S10000x5000.size a
  hwx0_5 : ∀ i : grid0.Coords, EltTy.bits .f32 = 32 ∨ (Rect.block (s := S10000x5000) S200x5000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x5000.size a ≤ S10000x5000.size a
  hwx0_6 : ∀ i : grid0.Coords, EltTy.bits .f32 = 32 ∨ (Rect.block (s := S10000x5000) S200x5000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x5000.size a ≤ S10000x5000.size a
  hwx0_7 : ∀ i : grid0.Coords, EltTy.bits .f32 = 32 ∨ (Rect.block (s := S10000x5000) S200x5000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x5000.size a ≤ S10000x5000.size a
  hwx0_8 : ∀ i : grid0.Coords, EltTy.bits .f32 = 32 ∨ (Rect.block (s := S10000x5000) S200x5000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x5000.size a ≤ S10000x5000.size a
  hwx0_9 : ∀ i : grid0.Coords, EltTy.bits .f32 = 32 ∨ (Rect.block (s := S10000x5000) S200x5000.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S129x5000.size a ≤ S129x5000.size a
  hwx0_12 : ∀ i : grid0.Coords, EltTy.bits .f32 = 32 ∨ (Rect.block (s := S129x5000) S129x5000.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x5000.size a ≤ S10000x5000.size a
  hwx1_0 : ∀ i : grid1.Coords, EltTy.bits .f32 = 32 ∨ (Rect.block (s := S10000x5000) S200x5000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x5000.size a ≤ S10000x5000.size a
  hwx1_1 : ∀ i : grid1.Coords, EltTy.bits .f32 = 32 ∨ (Rect.block (s := S10000x5000) S200x5000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x5000.size a ≤ S10000x5000.size a
  hwx1_2 : ∀ i : grid1.Coords, EltTy.bits .f32 = 32 ∨ (Rect.block (s := S10000x5000) S200x5000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x5000.size a ≤ S10000x5000.size a
  hwx1_3 : ∀ i : grid1.Coords, EltTy.bits .f32 = 32 ∨ (Rect.block (s := S10000x5000) S200x5000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x5000.size a ≤ S10000x5000.size a
  hwx1_4 : ∀ i : grid1.Coords, EltTy.bits .f32 = 32 ∨ (Rect.block (s := S10000x5000) S200x5000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S129x5000.size a ≤ S129x5000.size a
  hwx1_5 : ∀ i : grid1.Coords, EltTy.bits .f32 = 32 ∨ (Rect.block (s := S129x5000) S129x5000.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x128.size a ≤ S10000x128.size a
  hwx1_8 : ∀ i : grid1.Coords, EltTy.bits .f32 = 32 ∨ (Rect.block (s := S10000x128) S1000x128.size (cc1_transform_8 i) (hinb1_8 i)).WholeWords (EltTy.packing .f32)

variable [Facts₀]

def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x129_S200x1280_S129x1280_0_0_1_1_n_n : DotDims S200x129 S200x1280 S129x1280 where
  lhsContracting := [0]
  rhsContracting := [0]
  lhsNonContracting := [1]
  rhsNonContracting := [1]
  lhsBatch := []
  rhsBatch := []
  wf := dot_S200x129_S200x1280_S129x1280_0_0_1_1_n_n_wf
def dot_S200x129_S200x1160_S129x1160_0_0_1_1_n_n : DotDims S200x129 S200x1160 S129x1160 where
  lhsContracting := [0]
  rhsContracting := [0]
  lhsNonContracting := [1]
  rhsNonContracting := [1]
  lhsBatch := []
  rhsBatch := []
  wf := dot_S200x129_S200x1160_S129x1160_0_0_1_1_n_n_wf
def dot_S200x5000_S128x5000_S200x128_1_1_0_0_n_n : DotDims S200x5000 S128x5000 S200x128 where
  lhsContracting := [1]
  rhsContracting := [1]
  lhsNonContracting := [0]
  rhsNonContracting := [0]
  lhsBatch := []
  rhsBatch := []
  wf := dot_S200x5000_S128x5000_S200x128_1_1_0_0_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S200x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S200x5000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S200x5000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S200x5000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S200x5000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg1) S200x5000.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v0) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v3) S129x5000.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg1) S200x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x5000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S200x5000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S200x5000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S200x5000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v3) S129x5000.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v1) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v2) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0) S1000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S5000 : Shape := ⟨1, ![5000]⟩
abbrev S10000x1 : Shape := ⟨2, ![10000, 1]⟩
abbrev S5000x10000 : Shape := ⟨2, ![5000, 10000]⟩
abbrev S5000x128 : Shape := ⟨2, ![5000, 128]⟩
abbrev S5000x1 : Shape := ⟨2, ![5000, 1]⟩

abbrev nBuf : Space → Nat
  | .hbm => 94
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000, .f32⟩
  | .hbm, ⟨12, _⟩ => ⟨S_, .f32⟩
  | .hbm, ⟨13, _⟩ => ⟨S5000, .f32⟩
  | .hbm, ⟨14, _⟩ => ⟨S_, .f32⟩
  | .hbm, ⟨15, _⟩ => ⟨S10000, .f32⟩
  | .hbm, ⟨16, _⟩ => ⟨S10000, .i1⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .f32⟩
  | .hbm, ⟨26, _⟩ => ⟨S5000, .f32⟩
  | .hbm, ⟨27, _⟩ => ⟨S5000, .i1⟩
  | .hbm, ⟨28, _⟩ => ⟨S_, .f32⟩
  | .hbm, ⟨29, _⟩ => ⟨S5000, .f32⟩
  | .hbm, ⟨30, _⟩ => ⟨S5000, .f32⟩
  | .hbm, ⟨31, _⟩ => ⟨S_, .f32⟩
  | .hbm, ⟨32, _⟩ => ⟨S_, .f32⟩
  | .hbm, ⟨33, _⟩ => ⟨S5000, .f32⟩
  | .hbm, ⟨34, _⟩ => ⟨S5000, .f32⟩
  | .hbm, ⟨35, _⟩ => ⟨S10000x1, .f32⟩
  | .hbm, ⟨36, _⟩ => ⟨S10000x128, .f32⟩
  | .hbm, ⟨37, _⟩ => ⟨S10000x128, .f32⟩
  | .hbm, ⟨38, _⟩ => ⟨S5000x10000, .f32⟩
  | .hbm, ⟨39, _⟩ => ⟨S5000x128, .f32⟩
  | .hbm, ⟨40, _⟩ => ⟨S5000x1, .f32⟩
  | .hbm, ⟨41, _⟩ => ⟨S5000x128, .f32⟩
  | .hbm, ⟨42, _⟩ => ⟨S5000x128, .f32⟩
  | .hbm, ⟨43, _⟩ => ⟨S10000x128, .f32⟩
  | .hbm, ⟨44, _⟩ => ⟨S10000x1, .f32⟩
  | .hbm, ⟨45, _⟩ => ⟨S10000x128, .f32⟩
  | .hbm, ⟨46, _⟩ => ⟨S10000x128, .f32⟩
  | .hbm, ⟨47, _⟩ => ⟨S_, .f32⟩
  | .hbm, ⟨48, _⟩ => ⟨S10000, .f32⟩
  | .hbm, ⟨49, _⟩ => ⟨S10000x1, .f32⟩
  | .hbm, ⟨50, _⟩ => ⟨S_, .f32⟩
  | .hbm, ⟨51, _⟩ => ⟨S10000x1, .f32⟩
  | .hbm, ⟨52, _⟩ => ⟨S10000x1, .f32⟩
  | .hbm, ⟨53, _⟩ => ⟨S_, .i32⟩
  | .hbm, ⟨54, _⟩ => ⟨S_, .f32⟩
  | .hbm, ⟨55, _⟩ => ⟨S10000, .f32⟩
  | .hbm, ⟨56, _⟩ => ⟨S10000x1, .f32⟩
  | .hbm, ⟨57, _⟩ => ⟨S_, .f32⟩
  | .hbm, ⟨58, _⟩ => ⟨S10000x1, .f32⟩
  | .hbm, ⟨59, _⟩ => ⟨S10000x1, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S10000, .f32⟩
  | .hbm, ⟨68, _⟩ => ⟨S10000x1, .f32⟩
  | .hbm, ⟨69, _⟩ => ⟨S10000x1, .f32⟩
  | .hbm, ⟨70, _⟩ => ⟨S10000x1, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S10000x1, .f32⟩
  | .hbm, ⟨76, _⟩ => ⟨S10000x1, .f32⟩
  | .hbm, ⟨77, _⟩ => ⟨S10000x128, .f32⟩
  | .hbm, ⟨78, _⟩ => ⟨S10000x128, .f32⟩
  | .hbm, ⟨79, _⟩ => ⟨S_, .f32⟩
  | .hbm, ⟨80, _⟩ => ⟨S10000x1, .f32⟩
  | .hbm, ⟨81, _⟩ => ⟨S10000x1, .f32⟩
  | .hbm, ⟨82, _⟩ => ⟨S10000x1, .f32⟩
  | .hbm, ⟨83, _⟩ => ⟨S10000x128, .f32⟩
  | .hbm, ⟨84, _⟩ => ⟨S10000x128, .f32⟩
  | .hbm, ⟨85, _⟩ => ⟨S1x128, .f32⟩
  | .hbm, ⟨86, _⟩ => ⟨S10000x128, .f32⟩
  | .hbm, ⟨87, _⟩ => ⟨S10000x128, .f32⟩
  | .hbm, ⟨88, _⟩ => ⟨S1x128, .f32⟩
  | .hbm, ⟨89, _⟩ => ⟨S10000x128, .f32⟩
  | .hbm, ⟨90, _⟩ => ⟨S10000x128, .f32⟩
  | .hbm, ⟨91, _⟩ => ⟨S_, .f32⟩
  | .hbm, ⟨92, _⟩ => ⟨S10000x128, .f32⟩
  | .hbm, ⟨93, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_c : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_cst_1 : Ref sig .tc := ⟨.hbm, 64, rfl⟩
abbrev main_call2_v8 : Ref sig .tc := ⟨.hbm, 65, rfl⟩
abbrev main_call2_cst_2 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_cst_3 : Ref sig .tc := ⟨.hbm, 71, rfl⟩
abbrev main_call2_v13 : Ref sig .tc := ⟨.hbm, 72, rfl⟩
abbrev main_call2_cst_4 : Ref sig .tc := ⟨.hbm, 73, rfl⟩
abbrev main_call2_call0_v0 : Ref sig .tc := ⟨.hbm, 74, rfl⟩
abbrev main_call2_call0_v1 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_9 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_call3_cst : Ref sig .tc := ⟨.hbm, 91, rfl⟩
abbrev main_call3_v0 : Ref sig .tc := ⟨.hbm, 92, rfl⟩
abbrev main_v47 : Ref sig .tc := ⟨.hbm, 93, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x5000_S10000_d1 : S10000x5000.ReducesTo [1] S10000
  h_S_ : 0 < S_.numel
  reducesTo_S10000x5000_S5000_d0 : S10000x5000.ReducesTo [0] S5000
  bcast_S_S10000 : S_.BroadcastsInDim S10000 (![] : Fin 0 → Fin S10000.rank)
  bcast_S_S5000 : S_.BroadcastsInDim S5000 (![] : Fin 0 → Fin S5000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S10000x5000_S5000x10000_1_0 : S10000x5000.Transposes [1, 0] S5000x10000
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  reducesTo_S10000x128_S10000_d1 : S10000x128.ReducesTo [1] S10000
  bcast_S_S10000x1 : S_.BroadcastsInDim S10000x1 (![] : Fin 0 → Fin S10000x1.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S5000x10000_S10000x128_S5000x128_1_0_0_1_n_n_wf : DotDims.WF S5000x10000 S10000x128 S5000x128 [1] [0] [0] [1] [] []
  dot_S10000x5000_S5000x128_S10000x128_1_0_0_1_n_n_wf : DotDims.WF S10000x5000 S5000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S5000x10000_S10000x128_S5000x128_1_0_0_1_n_n : DotDims S5000x10000 S10000x128 S5000x128 where
  lhsContracting := [1]
  rhsContracting := [0]
  lhsNonContracting := [0]
  rhsNonContracting := [1]
  lhsBatch := []
  rhsBatch := []
  wf := dot_S5000x10000_S10000x128_S5000x128_1_0_0_1_n_n_wf
def dot_S10000x5000_S5000x128_S10000x128_1_0_0_1_n_n : DotDims S10000x5000 S5000x128 S10000x128 where
  lhsContracting := [1]
  rhsContracting := [0]
  lhsNonContracting := [0]
  rhsNonContracting := [1]
  lhsBatch := []
  rhsBatch := []
  wf := dot_S10000x5000_S5000x128_S10000x128_1_0_0_1_n_n_wf

class Facts : Prop extends Facts₀ where

variable [Facts]
-- ==== Proof.K.Runs.lean ====
import proofs.«111596_g59545426591934_cont_9to1_m_1243_24_alg».proof.Proof.Gen.Kernel.Launch
import proofs.«111596_g59545426591934_cont_9to1_m_1243_24_alg».proof.Proof.Gen.Kernel.Skeleton
import proofs.«111596_g59545426591934_cont_9to1_m_1243_24_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The first body's branch condition, true exactly at the first grid point.
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

-- The second body's branch condition, true exactly at the first grid point.
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

abbrev VO0 : View sig .tc .vmem S129x5000 .f32 := (Memref.whole cc0_stg12_0 : Memref sig .tc .vmem S129x5000 .f32).view

abbrev VO1 : View sig .tc .vmem S1000x128 .f32 := (Memref.whole cc1_stg8_0 : Memref sig .tc .vmem S1000x128 .f32).view

abbrev scM1 : Memref sig .tc .vmem S128x5000 .f32 := Memref.whole cc1_scratch0
abbrev VS1 : View sig .tc .vmem S128x5000 .f32 := scM1.view

end Cert.Kernel.Fr

end
-- ==== Proof.K.Run0.lean ====
import proofs.«111596_g59545426591934_cont_9to1_m_1243_24_alg».proof.Proof.K.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (c : Dev nD) (i : grid0.Coords) (arg1 : Memref sig .tc .vmem S200x128 .f32) (harg1 : arg1.IsWhole) (arg2 : Memref sig .tc .vmem S200x128 .f32) (harg2 : arg2.IsWhole) (arg3 : Memref sig .tc .vmem S200x128 .f32) (harg3 : arg3.IsWhole) (arg4 : Memref sig .tc .vmem S200x128 .f32) (harg4 : arg4.IsWhole) (arg5 : Memref sig .tc .vmem S200x128 .f32) (harg5 : arg5.IsWhole) (arg6 : Memref sig .tc .vmem S200x5000 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S129x5000 .f32) (harg13 : arg13.IsWhole)

-- The first body at the first grid point: the accumulator is zeroed, then updated by the five row blocks in turn; the run finds the list of stored pieces.
set_option maxHeartbeats 4000000 in
noncomputable def kernelRun0_A (hc0 : cond0 i)
    (x0 : Vec F S200x128 .f32) (x1 : Vec F S200x128 .f32) (x2 : Vec F S200x128 .f32) (x3 : Vec F S200x128 .f32) (x4 : Vec F S200x128 .f32) (h0 : Vec F S200x5000 .f32) (h1 : Vec F S200x5000 .f32) (h2 : Vec F S200x5000 .f32) (h3 : Vec F S200x5000 .f32) (h4 : Vec F S200x5000 .f32) (w : Vec F S128x128 .f32) (b : Vec F S1x128 .f32) :
    { L : List (View.Piece (Elt F) S129x5000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare h0 ∗ owns (c : Thread nD τ) arg7 fullShare h1 ∗ owns (c : Thread nD τ) arg8 fullShare h2 ∗ owns (c : Thread nD τ) arg9 fullShare h3 ∗ owns (c : Thread nD τ) arg10 fullShare h4 ∗ owns (c : Thread nD τ) arg11 fullShare w ∗ owns (c : Thread nD τ) arg12 fullShare b ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare h0 ∗ owns (c : Thread nD τ) arg7 fullShare h1 ∗ owns (c : Thread nD τ) arg8 fullShare h2 ∗ owns (c : Thread nD τ) arg9 fullShare h3 ∗ owns (c : Thread nD τ) arg10 fullShare h4 ∗ owns (c : Thread nD τ) arg11 fullShare w ∗ owns (c : Thread nD τ) arg12 fullShare b ∗ (∃ f, arg13.view.loc (c : Thread nD τ) ↦[arg13.view.set]{fullShare} arg13.view.writes (Elt F) f L)) -∗ K ⟨⟩))
          ⊢ wp frame (wpE (defs₀ (F := F)) Variants.none c none) E (cc0__pass1 i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__pass1_eq_skeleton]; unfold cc0__pass1_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact H12

-- The first body at a later point: the same five updates over the running contents `xo`.
set_option maxHeartbeats 4000000 in
noncomputable def kernelRun0_B (hc0 : ¬cond0 i)
    (x0 : Vec F S200x128 .f32) (x1 : Vec F S200x128 .f32) (x2 : Vec F S200x128 .f32) (x3 : Vec F S200x128 .f32) (x4 : Vec F S200x128 .f32) (h0 : Vec F S200x5000 .f32) (h1 : Vec F S200x5000 .f32) (h2 : Vec F S200x5000 .f32) (h3 : Vec F S200x5000 .f32) (h4 : Vec F S200x5000 .f32) (w : Vec F S128x128 .f32) (b : Vec F S1x128 .f32) (xo : Vec F S129x5000 .f32) :
    { L : List (View.Piece (Elt F) S129x5000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare h0 ∗ owns (c : Thread nD τ) arg7 fullShare h1 ∗ owns (c : Thread nD τ) arg8 fullShare h2 ∗ owns (c : Thread nD τ) arg9 fullShare h3 ∗ owns (c : Thread nD τ) arg10 fullShare h4 ∗ owns (c : Thread nD τ) arg11 fullShare w ∗ owns (c : Thread nD τ) arg12 fullShare b ∗ owns (c : Thread nD τ) arg13 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare h0 ∗ owns (c : Thread nD τ) arg7 fullShare h1 ∗ owns (c : Thread nD τ) arg8 fullShare h2 ∗ owns (c : Thread nD τ) arg9 fullShare h3 ∗ owns (c : Thread nD τ) arg10 fullShare h4 ∗ owns (c : Thread nD τ) arg11 fullShare w ∗ owns (c : Thread nD τ) arg12 fullShare b ∗ (∃ f, arg13.view.loc (c : Thread nD τ) ↦[arg13.view.set]{fullShare} arg13.view.writes (Elt F) f L)) -∗ K ⟨⟩))
          ⊢ wp frame (wpE (defs₀ (F := F)) Variants.none c none) E (cc0__pass1 i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__pass1_eq_skeleton]; unfold cc0__pass1_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact H12

end

end Cert.Kernel.Fr

end
-- ==== Proof.K.Dat0.lean ====
import proofs.«111596_g59545426591934_cont_9to1_m_1243_24_alg».proof.Proof.K.Run0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the array the region finds.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S200x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x5000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x5000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x5000 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x5000 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x5000 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S129x5000 .f32 := win0_12.stage (cfg0.slots t 12)
abbrev hs0_12 (t : Fin cfg0.N) : (ms0_12 t).IsWhole := hstage0_12 ((cfg0.slots t 12).cast nbuf0_12)

section
variable (c : Dev nD) (i : grid0.Coords) (arg1 : Memref sig .tc .vmem S200x128 .f32) (harg1 : arg1.IsWhole) (arg2 : Memref sig .tc .vmem S200x128 .f32) (harg2 : arg2.IsWhole) (arg3 : Memref sig .tc .vmem S200x128 .f32) (harg3 : arg3.IsWhole) (arg4 : Memref sig .tc .vmem S200x128 .f32) (harg4 : arg4.IsWhole) (arg5 : Memref sig .tc .vmem S200x128 .f32) (harg5 : arg5.IsWhole) (arg6 : Memref sig .tc .vmem S200x5000 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S129x5000 .f32) (harg13 : arg13.IsWhole)

section
variable (hc0 : cond0 i) (x0 : Vec F S200x128 .f32) (x1 : Vec F S200x128 .f32) (x2 : Vec F S200x128 .f32) (x3 : Vec F S200x128 .f32) (x4 : Vec F S200x128 .f32) (h0 : Vec F S200x5000 .f32) (h1 : Vec F S200x5000 .f32) (h2 : Vec F S200x5000 .f32) (h3 : Vec F S200x5000 .f32) (h4 : Vec F S200x5000 .f32) (w : Vec F S128x128 .f32) (b : Vec F S1x128 .f32)

theorem cover0_A (y : S129x5000.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b).1 ![129, 40] (by sl_kernel_rfl) y

def out0_A : Vec F S129x5000 .f32 :=
  VO0.read (Elt F) (VO0.writes (Elt F) VO0.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b).1)

end

section
variable (hc0 : ¬cond0 i) (x0 : Vec F S200x128 .f32) (x1 : Vec F S200x128 .f32) (x2 : Vec F S200x128 .f32) (x3 : Vec F S200x128 .f32) (x4 : Vec F S200x128 .f32) (h0 : Vec F S200x5000 .f32) (h1 : Vec F S200x5000 .f32) (h2 : Vec F S200x5000 .f32) (h3 : Vec F S200x5000 .f32) (h4 : Vec F S200x5000 .f32) (w : Vec F S128x128 .f32) (b : Vec F S1x128 .f32) (xo : Vec F S129x5000 .f32)

theorem cover0_B (y : S129x5000.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b xo).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b xo).1 ![129, 40] (by sl_kernel_rfl) y

def out0_B : Vec F S129x5000 .f32 :=
  VO0.read (Elt F) (VO0.writes (Elt F) VO0.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b xo).1)

end

end

-- The accumulator after point `n`, by recursion on the point: zero plus the first point's updates, then each later point's over the one before.
def outsAt0 (c : Dev nD) : (n : ℕ) → n < cfg0.N → Vec F S129x5000 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (outsAt0 c n (Nat.lt_of_succ_lt hn))

theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (outsAt0 V c (t.val - 1) (Nat.lt_of_le_of_lt (Nat.sub_le _ _) t.isLt)) := by
  obtain ⟨n, hn⟩ := t
  cases n with
  | zero => exact absurd rfl h0
  | succ n => exact rfl

def q5 : Fin 5 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right
  | ⟨_ + 5, h⟩ => absurd h (Nat.not_lt.2 (Nat.le_add_left _ _))

-- The first region's proof data: each input window holds its block, the accumulator holds `outsAt0`.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => outsAt0 V c t.val t.isLt
  Φ _ := Pipeline.ΦA spec0 c
  q w := match w with
    | ⟨0, _⟩ => q5 0 | ⟨1, _⟩ => q5 1 | ⟨2, _⟩ => q5 2 | ⟨3, _⟩ => q5 3 | ⟨4, _⟩ => q5 4
    | ⟨5, _⟩ => q5 0 | ⟨6, _⟩ => q5 1 | ⟨7, _⟩ => q5 2 | ⟨8, _⟩ => q5 3 | ⟨9, _⟩ => q5 4
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = outsAt0 V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl
theorem before0_11 (c : Dev nD) (t : Fin cfg0.N) (d) : (dat0 V c).before 11 t d = iblk0 V c 11 t :=
  ((dat0 V c).before_in_eq_fetched 11 rfl (fun _ => rfl) (fun _ _ _ => rfl) (fun _ => rfl) t d).trans rfl

theorem before0_12_B (c : Dev nD) (t : Fin cfg0.N) (h0 : ¬t.val = 0) (d) :
    (dat0 V c).before 12 t d = outsAt0 V c (t.val - 1) (Nat.lt_of_le_of_lt (Nat.sub_le _ _) t.isLt) := by
  have hN : t.val < 10 := lt_of_lt_of_eq t.isLt (show cfg0.N = 10 from N_0)
  rw [Dat.before_out_kept _ 12 rfl t h0 (Bool.eq_false_iff.mpr fun h => by have := (flush0_12 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t))

-- At every point the body takes what the data say it finds to what they say it leaves.
set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  by_cases h0 : t.val = 0
  · rw [outsAt0_A V c t h0]
    unfold out0_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)).2 Set.univ _)
    iframe H0 H1 H2 H3 H4 H5 H6 H7 H8 H9 H10 H11
    isplitl [H12]; · iexists _; iexact H12
    iintro ⟨H0, H1, H2, H3, H4, H5, H6, H7, H8, H9, H10, H11, ⟨%e12, H12⟩⟩
    isplitl [HΦ]; · iexact HΦ
    iframe Ho H0 H1 H2 H3 H4 H5 H6 H7 H8 H9 H10 H11
    unfold owns; iexists _; isplitr
    swap; · iexact H12
    ipureintro; exact View.read_writes_of_cover _ _ _ _ _ (cover0_A c _ _ _ _ _ _ _ _ _ _ _ _ _ _ _ _ _ _ _ _ _ _ _ _ _ _ _ _ _ _ _ _ _ _ _ _ _ _ _ _)
  · rw [outsAt0_B V c t h0]
    simp only [before0_12_B V c t h0]
    unfold out0_B
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _).2 Set.univ _)
    iframe H0 H1 H2 H3 H4 H5 H6 H7 H8 H9 H10 H11 H12
    iintro ⟨H0, H1, H2, H3, H4, H5, H6, H7, H8, H9, H10, H11, ⟨%e12, H12⟩⟩
    isplitl [HΦ]; · iexact HΦ
    iframe Ho H0 H1 H2 H3 H4 H5 H6 H7 H8 H9 H10 H11
    unfold owns; iexists _; isplitr
    swap; · iexact H12
    ipureintro; exact View.read_writes_of_cover _ _ _ _ _ (cover0_B c _ _ _ _ _ _ _ _ _ _ _ _ _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Run1.lean ====
import proofs.«111596_g59545426591934_cont_9to1_m_1243_24_alg».proof.Proof.K.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (c : Dev nD) (i : grid1.Coords) (arg1 : Memref sig .tc .vmem S200x5000 .f32) (harg1 : arg1.IsWhole) (arg2 : Memref sig .tc .vmem S200x5000 .f32) (harg2 : arg2.IsWhole) (arg3 : Memref sig .tc .vmem S200x5000 .f32) (harg3 : arg3.IsWhole) (arg4 : Memref sig .tc .vmem S200x5000 .f32) (harg4 : arg4.IsWhole) (arg5 : Memref sig .tc .vmem S200x5000 .f32) (harg5 : arg5.IsWhole) (arg6 : Memref sig .tc .vmem S129x5000 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S128x5000 .f32) (harg10 : arg10.IsWhole)

-- The second body at the first grid point: the scaled array is written to the scratch, then the five row bands of the output.
set_option maxHeartbeats 4000000 in
noncomputable def kernelRun1_A (hc0 : cond1 i)
    (h0 : Vec F S200x5000 .f32) (h1 : Vec F S200x5000 .f32) (h2 : Vec F S200x5000 .f32) (h3 : Vec F S200x5000 .f32) (h4 : Vec F S200x5000 .f32) (zT : Vec F S129x5000 .f32) (g : Vec F S1x128 .f32) (be : Vec F S1x128 .f32) :
    Σ' (L : List (View.Piece (Elt F) S1000x128 .f32)), { LS : List (View.Piece (Elt F) S128x5000 .f32) //
      ∀ (E : Set ℕ) (K : PUnit → sProp 𝕄),
        iprop(owns (c : Thread nD τ) arg1 fullShare h0 ∗ owns (c : Thread nD τ) arg2 fullShare h1 ∗ owns (c : Thread nD τ) arg3 fullShare h2 ∗ owns (c : Thread nD τ) arg4 fullShare h3 ∗ owns (c : Thread nD τ) arg5 fullShare h4 ∗ owns (c : Thread nD τ) arg6 fullShare zT ∗ owns (c : Thread nD τ) arg7 fullShare g ∗ owns (c : Thread nD τ) arg8 fullShare be ∗ (∃ d, owns (c : Thread nD τ) arg9 fullShare d) ∗ (∃ d, owns (c : Thread nD τ) arg10 fullShare d)
            ∗ (iprop(owns (c : Thread nD τ) arg1 fullShare h0 ∗ owns (c : Thread nD τ) arg2 fullShare h1 ∗ owns (c : Thread nD τ) arg3 fullShare h2 ∗ owns (c : Thread nD τ) arg4 fullShare h3 ∗ owns (c : Thread nD τ) arg5 fullShare h4 ∗ owns (c : Thread nD τ) arg6 fullShare zT ∗ owns (c : Thread nD τ) arg7 fullShare g ∗ owns (c : Thread nD τ) arg8 fullShare be ∗ (∃ f, arg9.view.loc (c : Thread nD τ) ↦[arg9.view.set]{fullShare} arg9.view.writes (Elt F) f L) ∗ (∃ f, arg10.view.loc (c : Thread nD τ) ↦[arg10.view.set]{fullShare} arg10.view.writes (Elt F) f LS)) -∗ K ⟨⟩))
          ⊢ wp frame (wpE (defs₀ (F := F)) Variants.none c none) E (cc1__pass2 i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__pass2_eq_skeleton]; unfold cc1__pass2_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

-- The second body at a later point, the scratch holding the scaled array `zs`.
set_option maxHeartbeats 4000000 in
noncomputable def kernelRun1_B (hc0 : ¬cond1 i)
    (h0 : Vec F S200x5000 .f32) (h1 : Vec F S200x5000 .f32) (h2 : Vec F S200x5000 .f32) (h3 : Vec F S200x5000 .f32) (h4 : Vec F S200x5000 .f32) (zT : Vec F S129x5000 .f32) (g : Vec F S1x128 .f32) (be : Vec F S1x128 .f32) (zs : Vec F S128x5000 .f32) :
    { L : List (View.Piece (Elt F) S1000x128 .f32) //
      ∀ (E : Set ℕ) (K : PUnit → sProp 𝕄),
        iprop(owns (c : Thread nD τ) arg1 fullShare h0 ∗ owns (c : Thread nD τ) arg2 fullShare h1 ∗ owns (c : Thread nD τ) arg3 fullShare h2 ∗ owns (c : Thread nD τ) arg4 fullShare h3 ∗ owns (c : Thread nD τ) arg5 fullShare h4 ∗ owns (c : Thread nD τ) arg6 fullShare zT ∗ owns (c : Thread nD τ) arg7 fullShare g ∗ owns (c : Thread nD τ) arg8 fullShare be ∗ (∃ d, owns (c : Thread nD τ) arg9 fullShare d) ∗ owns (c : Thread nD τ) arg10 fullShare zs
            ∗ (iprop(owns (c : Thread nD τ) arg1 fullShare h0 ∗ owns (c : Thread nD τ) arg2 fullShare h1 ∗ owns (c : Thread nD τ) arg3 fullShare h2 ∗ owns (c : Thread nD τ) arg4 fullShare h3 ∗ owns (c : Thread nD τ) arg5 fullShare h4 ∗ owns (c : Thread nD τ) arg6 fullShare zT ∗ owns (c : Thread nD τ) arg7 fullShare g ∗ owns (c : Thread nD τ) arg8 fullShare be ∗ (∃ f, arg9.view.loc (c : Thread nD τ) ↦[arg9.view.set]{fullShare} arg9.view.writes (Elt F) f L) ∗ owns (c : Thread nD τ) arg10 fullShare zs) -∗ K ⟨⟩))
          ⊢ wp frame (wpE (defs₀ (F := F)) Variants.none c none) E (cc1__pass2 i arg1 harg1 arg2 harg2 arg3 harg3 arg4 harg4 arg5 harg5 arg6 harg6 arg7 harg7 arg8 harg8 arg9 harg9 arg10 harg10) K } := by
  refine ⟨?_, fun E K => ?run⟩
  case run =>
    simp only [cc1__pass2_eq_skeleton]; unfold cc1__pass2_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; isplitr; · ipureintro; exact harg10.read_unread _
    iexact H9

end

end Cert.Kernel.Fr

end
-- ==== Proof.K.Dat1.lean ====
import proofs.«111596_g59545426591934_cont_9to1_m_1243_24_alg».proof.Proof.K.Run1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the array the region finds.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S200x5000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S200x5000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S200x5000 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S200x5000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S200x5000 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S129x5000 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1000x128 .f32 := win1_8.stage (cfg1.slots t 8)
abbrev hs1_8 (t : Fin cfg1.N) : (ms1_8 t).IsWhole := hstage1_8 ((cfg1.slots t 8).cast nbuf1_8)

section
variable (c : Dev nD) (i : grid1.Coords) (arg1 : Memref sig .tc .vmem S200x5000 .f32) (harg1 : arg1.IsWhole) (arg2 : Memref sig .tc .vmem S200x5000 .f32) (harg2 : arg2.IsWhole) (arg3 : Memref sig .tc .vmem S200x5000 .f32) (harg3 : arg3.IsWhole) (arg4 : Memref sig .tc .vmem S200x5000 .f32) (harg4 : arg4.IsWhole) (arg5 : Memref sig .tc .vmem S200x5000 .f32) (harg5 : arg5.IsWhole) (arg6 : Memref sig .tc .vmem S129x5000 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S128x5000 .f32) (harg10 : arg10.IsWhole)

section
variable (hc0 : cond1 i) (h0 : Vec F S200x5000 .f32) (h1 : Vec F S200x5000 .f32) (h2 : Vec F S200x5000 .f32) (h3 : Vec F S200x5000 .f32) (h4 : Vec F S200x5000 .f32) (zT : Vec F S129x5000 .f32) (g : Vec F S1x128 .f32) (be : Vec F S1x128 .f32)

theorem cover1_A (y : S1000x128.Idx) :
    ∃ pc ∈ (kernelRun1_A c i arg1 harg1 arg2 harg2 arg3 harg3 arg4 harg4 arg5 harg5 arg6 harg6 arg7 harg7 arg8 harg8 arg9 harg9 arg10 harg10 hc0 h0 h1 h2 h3 h4 zT g be).1, y ∈ pc.1.set :=
  View.cover_of_tiledL (kernelRun1_A c i arg1 harg1 arg2 harg2 arg3 harg3 arg4 harg4 arg5 harg5 arg6 harg6 arg7 harg7 arg8 harg8 arg9 harg9 arg10 harg10 hc0 h0 h1 h2 h3 h4 zT g be).1 S200x128.size (by sl_kernel_rfl) y

def out1_A : Vec F S1000x128 .f32 :=
  VO1.read (Elt F) (VO1.writes (Elt F) VO1.junk (kernelRun1_A c i arg1 harg1 arg2 harg2 arg3 harg3 arg4 harg4 arg5 harg5 arg6 harg6 arg7 harg7 arg8 harg8 arg9 harg9 arg10 harg10 hc0 h0 h1 h2 h3 h4 zT g be).1)

theorem scover1_A (y : S128x5000.Idx) :
    ∃ pc ∈ (kernelRun1_A c i arg1 harg1 arg2 harg2 arg3 harg3 arg4 harg4 arg5 harg5 arg6 harg6 arg7 harg7 arg8 harg8 arg9 harg9 arg10 harg10 hc0 h0 h1 h2 h3 h4 zT g be).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 h0 h1 h2 h3 h4 zT g be).2.1 S128x5000.size (by sl_kernel_rfl) y

def sout1_A : Vec F S128x5000 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 hc0 h0 h1 h2 h3 h4 zT g be).2.1)

end

section
variable (hc0 : ¬cond1 i) (h0 : Vec F S200x5000 .f32) (h1 : Vec F S200x5000 .f32) (h2 : Vec F S200x5000 .f32) (h3 : Vec F S200x5000 .f32) (h4 : Vec F S200x5000 .f32) (zT : Vec F S129x5000 .f32) (g : Vec F S1x128 .f32) (be : Vec F S1x128 .f32) (zs : Vec F S128x5000 .f32)

theorem cover1_B (y : S1000x128.Idx) :
    ∃ pc ∈ (kernelRun1_B c i arg1 harg1 arg2 harg2 arg3 harg3 arg4 harg4 arg5 harg5 arg6 harg6 arg7 harg7 arg8 harg8 arg9 harg9 arg10 harg10 hc0 h0 h1 h2 h3 h4 zT g be zs).1, y ∈ pc.1.set :=
  View.cover_of_tiledL (kernelRun1_B c i arg1 harg1 arg2 harg2 arg3 harg3 arg4 harg4 arg5 harg5 arg6 harg6 arg7 harg7 arg8 harg8 arg9 harg9 arg10 harg10 hc0 h0 h1 h2 h3 h4 zT g be zs).1 S200x128.size (by sl_kernel_rfl) y

def out1_B : Vec F S1000x128 .f32 :=
  VO1.read (Elt F) (VO1.writes (Elt F) VO1.junk (kernelRun1_B c i arg1 harg1 arg2 harg2 arg3 harg3 arg4 harg4 arg5 harg5 arg6 harg6 arg7 harg7 arg8 harg8 arg9 harg9 arg10 harg10 hc0 h0 h1 h2 h3 h4 zT g be zs).1)

end

end

abbrev t1z : Fin cfg1.N := ⟨0, by rw [show cfg1.N = 10 from N_1]; decide⟩

-- The scratch from the first point on.
def sAt1 (c : Dev nD) : Vec F S128x5000 .f32 :=
  sout1_A c (grid1.coords t1z) (ms1_0 t1z) (hs1_0 t1z) (ms1_1 t1z) (hs1_1 t1z) (ms1_2 t1z) (hs1_2 t1z) (ms1_3 t1z) (hs1_3 t1z) (ms1_4 t1z) (hs1_4 t1z) (ms1_5 t1z) (hs1_5 t1z) (ms1_6 t1z) (hs1_6 t1z) (ms1_7 t1z) (hs1_7 t1z) (ms1_8 t1z) (hs1_8 t1z) scM1 (Memref.isWhole_whole _) ((hcond1 t1z).mpr (show (t1z : Fin cfg1.N).val = 0 from rfl)) (iblk1 V c 0 t1z) (iblk1 V c 1 t1z) (iblk1 V c 2 t1z) (iblk1 V c 3 t1z) (iblk1 V c 4 t1z) (iblk1 V c 5 t1z) (iblk1 V c 6 t1z) (iblk1 V c 7 t1z)

-- The output block after point `t`.
def outsAt1 (c : Dev nD) (t : Fin cfg1.N) : Vec F S1000x128 .f32 :=
  if h0 : t.val = 0 then out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1 t).mpr h0) (iblk1 V c 0 t) (iblk1 V c 1 t) (iblk1 V c 2 t) (iblk1 V c 3 t) (iblk1 V c 4 t) (iblk1 V c 5 t) (iblk1 V c 6 t) (iblk1 V c 7 t)
  else out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1 t).mp h)) (iblk1 V c 0 t) (iblk1 V c 1 t) (iblk1 V c 2 t) (iblk1 V c 3 t) (iblk1 V c 4 t) (iblk1 V c 5 t) (iblk1 V c 6 t) (iblk1 V c 7 t) (sAt1 V c)

theorem outsAt1_A (c : Dev nD) (t : Fin cfg1.N) (h0 : t.val = 0) :
    outsAt1 V c t = out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1 t).mpr h0) (iblk1 V c 0 t) (iblk1 V c 1 t) (iblk1 V c 2 t) (iblk1 V c 3 t) (iblk1 V c 4 t) (iblk1 V c 5 t) (iblk1 V c 6 t) (iblk1 V c 7 t) := dif_pos h0
theorem outsAt1_B (c : Dev nD) (t : Fin cfg1.N) (h0 : ¬t.val = 0) :
    outsAt1 V c t = out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1 t).mp h)) (iblk1 V c 0 t) (iblk1 V c 1 t) (iblk1 V c 2 t) (iblk1 V c 3 t) (iblk1 V c 4 t) (iblk1 V c 5 t) (iblk1 V c 6 t) (iblk1 V c 7 t) (sAt1 V c) := dif_neg h0

def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ X)

theorem PhiA1_eq (c : Dev nD) :
    (Pipeline.ΦA spec1 c : sProp 𝕄) = iprop(restWith c (iprop(∃ d, owns (c : Thread nD τ) scM1 fullShare d)) ∗ (∃ r, prngReg c r)) := by
  unfold Pipeline.ΦA restWith; rw [scopedRest1_eq]; simp only [scM1, owns_whole]; try rfl

def PhiS1 (c : Dev nD) : (n : ℕ) → n ≤ cfg1.N → sProp 𝕄
  | 0, _ => Pipeline.ΦA spec1 c
  | _ + 1, _ => iprop(restWith c (owns (c : Thread nD τ) scM1 fullShare (sAt1 V c)) ∗ (∃ r, prngReg c r))

theorem PhiS1_zero (c : Dev nD) (n : ℕ) (h : n ≤ cfg1.N) (hz : n = 0) : PhiS1 V c n h = Pipeline.ΦA spec1 c := by
  subst hz; rfl
theorem PhiS1_pos (c : Dev nD) (n : ℕ) (h : n ≤ cfg1.N) (hz : n ≠ 0) :
    PhiS1 V c n h = iprop(restWith c (owns (c : Thread nD τ) scM1 fullShare (sAt1 V c)) ∗ (∃ r, prngReg c r)) := by
  cases n with
  | zero => exact absurd rfl hz
  | succ n => rfl

def q5' : Fin 5 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right
  | ⟨_ + 5, h⟩ => absurd h (Nat.not_lt.2 (Nat.le_add_left _ _))

-- The second region's proof data: each input window holds its block, the output window holds `outsAt1`.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outsAt1 V c t
  Φ t := PhiS1 V c t.val (Nat.le_of_lt_succ t.isLt)
  q w := match w with
    | ⟨0, _⟩ => q5' 0 | ⟨1, _⟩ => q5' 1 | ⟨2, _⟩ => q5' 2 | ⟨3, _⟩ => q5' 3 | ⟨4, _⟩ => q5' 4
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outsAt1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

-- At every point the body takes what the data say it finds to what they say it leaves.
set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    show (dat1 V c).Φ t.succ = PhiS1 V c (t.val + 1) t.isLt from rfl, PhiS1_pos V c _ _ (Nat.succ_ne_zero _),
    after1_0, after1_1, after1_2, after1_3, after1_4, after1_5, after1_6, after1_7, after1_8]
  by_cases h0 : t.val = 0
  · obtain rfl : t = t1z := Fin.ext h0
    rw [outsAt1_A V c t1z (show (t1z : Fin cfg1.N).val = 0 from rfl), PhiS1_castSucc V c t1z, PhiS1_zero V c _ _ rfl, PhiA1_eq]
    unfold out1_A sAt1 sout1_A restWith
    iintro ⟨⟨⟨E0, E1, E2, E3, E4, E5, E6, E7, E8, E9, E10, E11, E12, E13, E14, E15, E16, E17, E18, E19, E20, E21, E22, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t1z) _ _ _ _ _ _ _ _ _ _ _ _ _ _ _ _ _ _ _ _ ((hcond1 t1z).mpr (show (t1z : Fin cfg1.N).val = 0 from rfl)) (iblk1 V c 0 t1z) (iblk1 V c 1 t1z) (iblk1 V c 2 t1z) (iblk1 V c 3 t1z) (iblk1 V c 4 t1z) (iblk1 V c 5 t1z) (iblk1 V c 6 t1z) (iblk1 V c 7 t1z)).2.2 Set.univ _)
    iframe H0 H1 H2 H3 H4 H5 H6 H7
    isplitl [H8]; · iexists _; iexact H8
    isplitl [HS]; · iexact HS
    iintro ⟨H0, H1, H2, H3, H4, H5, H6, H7, ⟨%e8, H8⟩, ⟨%es, HS⟩⟩
    isplitl [E0 E1 E2 E3 E4 E5 E6 E7 E8 E9 E10 E11 E12 E13 E14 E15 E16 E17 E18 E19 E20 E21 E22 HS Hg]
    · isplitr [Hg]
      swap; · iexact Hg
      iframe E0 E1 E2 E3 E4 E5 E6 E7 E8 E9 E10 E11 E12 E13 E14 E15 E16 E17 E18 E19 E20 E21 E22
      unfold owns; iexists _; isplitr
      swap; · iexact HS
      ipureintro; exact View.read_writes_of_cover _ _ _ _ _ (scover1_A c _ _ _ _ _ _ _ _ _ _ _ _ _ _ _ _ _ _ _ _ _ _ _ _ _ _ _ _ _ _)
    iframe Ho H0 H1 H2 H3 H4 H5 H6 H7
    unfold owns; iexists _; isplitr
    swap; · iexact H8
    ipureintro; exact View.read_writes_of_cover _ _ _ _ _ (cover1_A c _ _ _ _ _ _ _ _ _ _ _ _ _ _ _ _ _ _ _ _ _ _ _ _ _ _ _ _ _ _)
  · rw [outsAt1_B V c t h0, PhiS1_castSucc V c t, PhiS1_pos V c _ _ h0]
    unfold out1_B restWith
    iintro ⟨⟨⟨E0, E1, E2, E3, E4, E5, E6, E7, E8, E9, E10, E11, E12, E13, E14, E15, E16, E17, E18, E19, E20, E21, E22, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) _ _ _ _ _ _ _ _ _ _ _ _ _ _ _ _ _ _ _ _ (fun h => h0 ((hcond1 t).mp h)) (iblk1 V c 0 t) (iblk1 V c 1 t) (iblk1 V c 2 t) (iblk1 V c 3 t) (iblk1 V c 4 t) (iblk1 V c 5 t) (iblk1 V c 6 t) (iblk1 V c 7 t) (sAt1 V c)).2 Set.univ _)
    iframe H0 H1 H2 H3 H4 H5 H6 H7
    isplitl [H8]; · iexists _; iexact H8
    isplitl [HS]; · iexact HS
    iintro ⟨H0, H1, H2, H3, H4, H5, H6, H7, ⟨%e8, H8⟩, HS⟩
    isplitl [E0 E1 E2 E3 E4 E5 E6 E7 E8 E9 E10 E11 E12 E13 E14 E15 E16 E17 E18 E19 E20 E21 E22 HS Hg]
    · isplitr [Hg]
      swap; · iexact Hg
      iframe E0 E1 E2 E3 E4 E5 E6 E7 E8 E9 E10 E11 E12 E13 E14 E15 E16 E17 E18 E19 E20 E21 E22
      iexact HS
    iframe Ho H0 H1 H2 H3 H4 H5 H6 H7
    unfold owns; iexists _; isplitr
    swap; · iexact H8
    ipureintro; exact View.read_writes_of_cover _ _ _ _ _ (cover1_B c _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Shares.lean ====
import proofs.«111596_g59545426591934_cont_9to1_m_1243_24_alg».proof.Proof.K.Dat0
import proofs.«111596_g59545426591934_cont_9to1_m_1243_24_alg».proof.Proof.K.Dat1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The full share cut in five: left halves down the right spine of the share tree.
theorem split5 {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right.left} f)
      ∗ (ℓ ↦{fullShare.right.right.right.left} f) ∗ ℓ ↦{fullShare.right.right.right.right} f) :=
  (pointsTo_share (PosShare.mem_left_op_right _)).trans <| sep_congr_right <|
  (pointsTo_share (PosShare.mem_left_op_right _)).trans <| sep_congr_right <|
  (pointsTo_share (PosShare.mem_left_op_right _)).trans <| sep_congr_right <|
  (pointsTo_share (PosShare.mem_left_op_right _))

theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
        ∗ (((c : Thread nD τ).loc main_arg2) ↦{fullShare} V' main_arg2) ∗ (((c : Thread nD τ).loc main_call0_v0) ↦{fullShare} V' main_call0_v0)
        ∗ (((c : Thread nD τ).loc main_call0_v3) ↦{fullShare} V' main_call0_v3)) := by
  unfold Pipeline.arrBufs
  exact bigSep_eq_bigSepL_of_eq [main_arg0, main_arg1, main_arg2, main_call0_v0, main_call0_v3] (by decide) (by decide) _

theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_call0_v3) ↦{fullShare} V' main_call0_v3)
        ∗ (((c : Thread nD τ).loc main_call0_v1) ↦{fullShare} V' main_call0_v1) ∗ (((c : Thread nD τ).loc main_call0_v2) ↦{fullShare} V' main_call0_v2)
        ∗ (((c : Thread nD τ).loc main_v0) ↦{fullShare} V' main_v0)) := by
  unfold Pipeline.arrBufs
  exact bigSep_eq_bigSepL_of_eq [main_arg1, main_call0_v3, main_call0_v1, main_call0_v2, main_v0] (by decide) (by decide) _

theorem share0_0 (c : Dev nD) : (dat0 V c).share (0 : Fin 13) = fullShare.left := rfl
theorem share0_1 (c : Dev nD) : (dat0 V c).share (1 : Fin 13) = fullShare.right.left := rfl
theorem share0_2 (c : Dev nD) : (dat0 V c).share (2 : Fin 13) = fullShare.right.right.left := rfl
theorem share0_3 (c : Dev nD) : (dat0 V c).share (3 : Fin 13) = fullShare.right.right.right.left := rfl
theorem share0_4 (c : Dev nD) : (dat0 V c).share (4 : Fin 13) = fullShare.right.right.right.right := rfl
theorem share0_5 (c : Dev nD) : (dat0 V c).share (5 : Fin 13) = fullShare.left := rfl
theorem share0_6 (c : Dev nD) : (dat0 V c).share (6 : Fin 13) = fullShare.right.left := rfl
theorem share0_7 (c : Dev nD) : (dat0 V c).share (7 : Fin 13) = fullShare.right.right.left := rfl
theorem share0_8 (c : Dev nD) : (dat0 V c).share (8 : Fin 13) = fullShare.right.right.right.left := rfl
theorem share0_9 (c : Dev nD) : (dat0 V c).share (9 : Fin 13) = fullShare.right.right.right.right := rfl
theorem share0_10 (c : Dev nD) : (dat0 V c).share (10 : Fin 13) = fullShare := rfl
theorem share0_11 (c : Dev nD) : (dat0 V c).share (11 : Fin 13) = fullShare := rfl
theorem share0_12 (c : Dev nD) : (dat0 V c).share (12 : Fin 13) = fullShare := rfl

-- Five windows read each of two arrays: each array's full share is cut in five, one piece a window.
theorem arrays_in0 (c : Dev nD) :
    (Pipeline.arrBufs (Ix := Unit) (Name := ℕ) (U := UR sig nD τ) (Lvl := ℕ) spec0 c (V c) : sProp 𝕄) ⊢ (dat0 V c).arrays ((dat0 V c).arrAt · 0) := by
  have a (w : Fin 13) : (dat0 V c).arrAt w 0 = V c (Pipeline.arrRef spec0 w) := (rfl : (dat0 V c).arrAt w 0 = (dat0 V c).A w).trans (A_eq0 V c w)
  unfold Dat.arrays
  rw [arrBufs0_eq, bigSep_W0]
  simp only [View.set_whole, share0_0 V c, share0_1 V c, share0_2 V c, share0_3 V c, share0_4 V c, share0_5 V c, share0_6 V c, share0_7 V c, share0_8 V c, share0_9 V c, share0_10 V c, share0_11 V c, share0_12 V c, a]
  iintro ⟨X, H, W, B, O⟩
  ihave X := (split5 _).1 $$ X
  icases X with ⟨X0, X1, X2, X3, X4⟩
  ihave H := (split5 _).1 $$ H
  icases H with ⟨H0, H1, H2, H3, H4⟩
  iframe X0 X1 X2 X3 X4 H0 H1 H2 H3 H4 W B O

-- The five pieces of each shared array join to the full share again; the accumulator's array is at its final contents.
theorem arrays_out0 (c : Dev nD) (V' : (b : Ref sig .tc) → Buf (Elt F) ((c : Thread nD τ).loc b))
    (hout : V' main_call0_v3 = (dat0 V c).arrAt 12 cfg0.N) (hrest : ∀ b, b ≠ main_call0_v3 → V' b = V c b) :
    (dat0 V c).arrays ((dat0 V c).arrAt · cfg0.N) ⊢ (Pipeline.arrBufs (Ix := Unit) (Name := ℕ) (U := UR sig nD τ) (Lvl := ℕ) spec0 c V' : sProp 𝕄) := by
  have a (b : Ref sig .tc) (hb : b ≠ main_call0_v3) {X : Buf (Elt F) ((c : Thread nD τ).loc b)} (h : X = V c b) : X = V' b := h.trans (hrest b hb).symm
  unfold Dat.arrays
  rw [arrBufs0_eq, bigSep_W0]
  simp only [View.set_whole, share0_0 V c, share0_1 V c, share0_2 V c, share0_3 V c, share0_4 V c, share0_5 V c, share0_6 V c, share0_7 V c, share0_8 V c, share0_9 V c, share0_10 V c, share0_11 V c, share0_12 V c, a main_arg0 (by decide) (((dat0 V c).arrAt_in 0 rfl _).trans (A_eq0 V c 0)),
    a main_arg0 (by decide) (((dat0 V c).arrAt_in 1 rfl _).trans (A_eq0 V c 1)),
    a main_arg0 (by decide) (((dat0 V c).arrAt_in 2 rfl _).trans (A_eq0 V c 2)),
    a main_arg0 (by decide) (((dat0 V c).arrAt_in 3 rfl _).trans (A_eq0 V c 3)),
    a main_arg0 (by decide) (((dat0 V c).arrAt_in 4 rfl _).trans (A_eq0 V c 4)),
    a main_arg1 (by decide) (((dat0 V c).arrAt_in 5 rfl _).trans (A_eq0 V c 5)),
    a main_arg1 (by decide) (((dat0 V c).arrAt_in 6 rfl _).trans (A_eq0 V c 6)),
    a main_arg1 (by decide) (((dat0 V c).arrAt_in 7 rfl _).trans (A_eq0 V c 7)),
    a main_arg1 (by decide) (((dat0 V c).arrAt_in 8 rfl _).trans (A_eq0 V c 8)),
    a main_arg1 (by decide) (((dat0 V c).arrAt_in 9 rfl _).trans (A_eq0 V c 9)),
    a main_arg2 (by decide) (((dat0 V c).arrAt_in 10 rfl _).trans (A_eq0 V c 10)),
    a main_call0_v0 (by decide) (((dat0 V c).arrAt_in 11 rfl _).trans (A_eq0 V c 11)), hout.symm]
  iintro ⟨X0, X1, X2, X3, X4, H0, H1, H2, H3, H4, W, B, O⟩
  isplitl [X0 X1 X2 X3 X4]
  · iapply (split5 _).2
    iframe X0 X1 X2 X3 X4
  isplitl [H0 H1 H2 H3 H4]
  · iapply (split5 _).2
    iframe H0 H1 H2 H3 H4
  iframe W B O

theorem share1_0 (c : Dev nD) : (dat1 V c).share (0 : Fin 9) = fullShare.left := rfl
theorem share1_1 (c : Dev nD) : (dat1 V c).share (1 : Fin 9) = fullShare.right.left := rfl
theorem share1_2 (c : Dev nD) : (dat1 V c).share (2 : Fin 9) = fullShare.right.right.left := rfl
theorem share1_3 (c : Dev nD) : (dat1 V c).share (3 : Fin 9) = fullShare.right.right.right.left := rfl
theorem share1_4 (c : Dev nD) : (dat1 V c).share (4 : Fin 9) = fullShare.right.right.right.right := rfl
theorem share1_5 (c : Dev nD) : (dat1 V c).share (5 : Fin 9) = fullShare := rfl
theorem share1_6 (c : Dev nD) : (dat1 V c).share (6 : Fin 9) = fullShare := rfl
theorem share1_7 (c : Dev nD) : (dat1 V c).share (7 : Fin 9) = fullShare := rfl
theorem share1_8 (c : Dev nD) : (dat1 V c).share (8 : Fin 9) = fullShare := rfl

theorem arrays_in1 (c : Dev nD) :
    (Pipeline.arrBufs (Ix := Unit) (Name := ℕ) (U := UR sig nD τ) (Lvl := ℕ) spec1 c (V c) : sProp 𝕄) ⊢ (dat1 V c).arrays ((dat1 V c).arrAt · 0) := by
  have a (w : Fin 9) : (dat1 V c).arrAt w 0 = V c (Pipeline.arrRef spec1 w) := (rfl : (dat1 V c).arrAt w 0 = (dat1 V c).A w).trans (A_eq1 V c w)
  unfold Dat.arrays
  rw [arrBufs1_eq, bigSep_W1]
  simp only [View.set_whole, share1_0 V c, share1_1 V c, share1_2 V c, share1_3 V c, share1_4 V c, share1_5 V c, share1_6 V c, share1_7 V c, share1_8 V c, a]
  iintro ⟨H, Z, G, B, O⟩
  ihave H := (split5 _).1 $$ H
  icases H with ⟨H0, H1, H2, H3, H4⟩
  iframe H0 H1 H2 H3 H4 Z G B O

theorem arrays_out1 (c : Dev nD) (V' : (b : Ref sig .tc) → Buf (Elt F) ((c : Thread nD τ).loc b))
    (hout : V' main_v0 = (dat1 V c).arrAt 8 cfg1.N) (hrest : ∀ b, b ≠ main_v0 → V' b = V c b) :
    (dat1 V c).arrays ((dat1 V c).arrAt · cfg1.N) ⊢ (Pipeline.arrBufs (Ix := Unit) (Name := ℕ) (U := UR sig nD τ) (Lvl := ℕ) spec1 c V' : sProp 𝕄) := by
  have a (b : Ref sig .tc) (hb : b ≠ main_v0) {X : Buf (Elt F) ((c : Thread nD τ).loc b)} (h : X = V c b) : X = V' b := h.trans (hrest b hb).symm
  unfold Dat.arrays
  rw [arrBufs1_eq, bigSep_W1]
  simp only [View.set_whole, share1_0 V c, share1_1 V c, share1_2 V c, share1_3 V c, share1_4 V c, share1_5 V c, share1_6 V c, share1_7 V c, share1_8 V c, a main_arg1 (by decide) (((dat1 V c).arrAt_in 0 rfl _).trans (A_eq1 V c 0)),
    a main_arg1 (by decide) (((dat1 V c).arrAt_in 1 rfl _).trans (A_eq1 V c 1)),
    a main_arg1 (by decide) (((dat1 V c).arrAt_in 2 rfl _).trans (A_eq1 V c 2)),
    a main_arg1 (by decide) (((dat1 V c).arrAt_in 3 rfl _).trans (A_eq1 V c 3)),
    a main_arg1 (by decide) (((dat1 V c).arrAt_in 4 rfl _).trans (A_eq1 V c 4)),
    a main_call0_v3 (by decide) (((dat1 V c).arrAt_in 5 rfl _).trans (A_eq1 V c 5)),
    a main_call0_v1 (by decide) (((dat1 V c).arrAt_in 6 rfl _).trans (A_eq1 V c 6)),
    a main_call0_v2 (by decide) (((dat1 V c).arrAt_in 7 rfl _).trans (A_eq1 V c 7)), hout.symm]
  iintro ⟨H0, H1, H2, H3, H4, Z, G, B, O⟩
  isplitl [H0 H1 H2 H3 H4]
  · iapply (split5 _).2
    iframe H0 H1 H2 H3 H4
  iframe Z G B O

end Cert.Kernel.Fr

end
-- ==== Proof.K.Regions.lean ====
import proofs.«111596_g59545426591934_cont_9to1_m_1243_24_alg».proof.Proof.K.Shares
import proofs.«111596_g59545426591934_cont_9to1_m_1243_24_alg».proof.Proof.K.RegionsVal

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E1 : (c : Dev nD) → (b : Ref sig .tc) → Buf (Elt F) ((c : Thread nD τ).loc b) := fun c b => Gen.V1 m c b

-- The arrays after the first region: its output array replaced, the rest as entered.
def W2 (c : Dev nD) : Valuation τ sig (Elt F) :=
  Function.update (Gen.V1 m c) main_call0_v3 ((dat0 (E1 m) c).arrAt 12 cfg0.N)

abbrev E2 : (c : Dev nD) → (b : Ref sig .tc) → Buf (Elt F) ((c : Thread nD τ).loc b) := fun c b => W2 m c b

-- The arrays after the second region.
def W3 (c : Dev nD) : Valuation τ sig (Elt F) :=
  Function.update (W2 m c) main_v0 ((dat1 (E2 m) c).arrAt 8 cfg1.N)

def outs : Gen.Outs (F := F) := fun _ r c => W3 m c r

theorem W2_out (c : Dev nD) : W2 m c main_call0_v3 = (dat0 (E1 m) c).arrAt 12 cfg0.N := by
  unfold W2; exact Function.update_self ..
theorem W2_of_ne (c : Dev nD) (b : Ref sig .tc) (hb : b ≠ main_call0_v3) : W2 m c b = Gen.V1 m c b := by
  unfold W2; exact Function.update_of_ne (StableHlo.devRef_ne_of_ne hb) ..
theorem W3_out (c : Dev nD) : W3 m c main_v0 = (dat1 (E2 m) c).arrAt 8 cfg1.N := by
  unfold W3; exact Function.update_self ..
theorem W3_of_ne (c : Dev nD) (b : Ref sig .tc) (hb : b ≠ main_v0) : W3 m c b = W2 m c b := by
  unfold W3; exact Function.update_of_ne (StableHlo.devRef_ne_of_ne hb) ..

theorem outs_2 (c : Dev nD) : outs m 2 main_call0_v3 c = (dat0 (E1 m) c).arrAt 12 cfg0.N :=
  (W3_of_ne m c main_call0_v3 (by decide)).trans (W2_out m c)
theorem outs_3 (c : Dev nD) : outs m 3 main_v0 c = (dat1 (E2 m) c).arrAt 8 cfg1.N := W3_out m c

theorem V2_eq (c : Dev nD) : Gen.V2 m (outs m) c = W2 m c := by
  unfold Gen.V2 W2; rw [outs_2]
theorem V3_eq (c : Dev nD) : Gen.V3 m (outs m) c = W3 m c := by
  unfold Gen.V3 W3; rw [outs_3, V2_eq]

def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

theorem unscopedRest0_congr (c : Dev nD) (V V' : (b : Ref sig .tc) → Buf (Elt F) ((c : Thread nD τ).loc b))
    (h : ∀ b, b ≠ main_call0_v3 → V' b = V b) :
    (Pipeline.unscopedRest (Ix := Unit) (Name := ℕ) (U := UR sig nD τ) (Lvl := ℕ) spec0 c V' : sProp 𝕄)
      = Pipeline.unscopedRest spec0 c V := by
  unfold Pipeline.unscopedRest
  refine bigSep_congr fun b hb => ?_
  rw [h b (fun e => by subst e; exact (Finset.mem_sdiff.mp hb).2 (Finset.mem_image.mpr ⟨12, Finset.mem_univ _, rfl⟩))]

theorem unscopedRest1_congr (c : Dev nD) (V V' : (b : Ref sig .tc) → Buf (Elt F) ((c : Thread nD τ).loc b))
    (h : ∀ b, b ≠ main_v0 → V' b = V b) :
    (Pipeline.unscopedRest (Ix := Unit) (Name := ℕ) (U := UR sig nD τ) (Lvl := ℕ) spec1 c V' : sProp 𝕄)
      = Pipeline.unscopedRest spec1 c V := by
  unfold Pipeline.unscopedRest
  refine bigSep_congr fun b hb => ?_
  rw [h b (fun e => by subst e; exact (Finset.mem_sdiff.mp hb).2 (Finset.mem_image.mpr ⟨8, Finset.mem_univ _, rfl⟩))]

theorem held_split0 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W]
  exact Pipeline.unscopedBufs_split₀ cfgs 0 winFacts₀0.arr_unscoped c (fun b => W b)

theorem held_split1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W]
  exact Pipeline.unscopedBufs_split₀ cfgs 1 winFacts₀1.arr_unscoped c (fun b => W b)

set_option backward.isDefEq.respectTransparency.types false in

def reg0 : Pipeline.RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit : (StableHlo.held (c : Thread nD τ) (Pipeline.ucRefs τ sig) (Gen.V1 m c) : sProp 𝕄)
        ⊢ iprop((dat0 (E1 m) c).arrays ((dat0 (E1 m) c).arrAt · 0)
          ∗ Pipeline.unscopedRest (Ix := Unit) (Name := ℕ) (U := UR sig nD τ) (Lvl := ℕ) spec0 c (E1 m c)) := by
      rw [held_split0]; exact sep_mono (arrays_in0 (E1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (E1 m) c).arrays ((dat0 (E1 m) c).arrAt · cfg0.N)
          ∗ Pipeline.unscopedRest (Ix := Unit) (Name := ℕ) (U := UR sig nD τ) (Lvl := ℕ) spec0 c (E1 m c))
        ⊢ (StableHlo.held (c : Thread nD τ) (Pipeline.ucRefs τ sig) (W2 m c) : sProp 𝕄) := by
      rw [held_split0, unscopedRest0_congr c (E1 m c) (E2 m c) (fun b hb => W2_of_ne m c b hb)]
      exact sep_mono (arrays_out0 (E1 m) c (E2 m c) (W2_out m c) (fun b hb => W2_of_ne m c b hb)) .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem restWith_mono (c : Dev nD) {X X' : sProp 𝕄} (h : X ⊢ X') : restWith (F := F) c X ⊢ restWith c X' := by
  unfold restWith
  iterate 23 refine sep_mono .rfl ?_
  exact h

theorem PhiS1_last (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = PhiS1 V c cfg1.N (Nat.le_refl _) from rfl,
    PhiS1_pos V c _ _ (by rw [show cfg1.N = 10 from N_1]; decide), PhiA1_eq]
  refine sep_mono (restWith_mono c ?_) .rfl
  iintro H; iexists _; iexact H

set_option backward.isDefEq.respectTransparency.types false in

def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (StableHlo.held (c : Thread nD τ) (Pipeline.ucRefs τ sig) (W2 m c) : sProp 𝕄)
        ⊢ iprop((dat1 (E2 m) c).arrays ((dat1 (E2 m) c).arrAt · 0)
          ∗ Pipeline.unscopedRest (Ix := Unit) (Name := ℕ) (U := UR sig nD τ) (Lvl := ℕ) spec1 c (E2 m c)) := by
      rw [held_split1]; exact sep_mono (arrays_in1 (E2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (PhiS1_last (E2 m) c).trans ?_
    unfold Pipeline.ΦA
    iintro ⟨Hr, Hp⟩
    isplitl [Hp]; · iexact Hp
    isplitr; · iempintro
    iexact Hr
  hexit c := by
    have hjoin : iprop((dat1 (E2 m) c).arrays ((dat1 (E2 m) c).arrAt · cfg1.N)
          ∗ Pipeline.unscopedRest (Ix := Unit) (Name := ℕ) (U := UR sig nD τ) (Lvl := ℕ) spec1 c (E2 m c))
        ⊢ (StableHlo.held (c : Thread nD τ) (Pipeline.ucRefs τ sig) (W3 m c) : sProp 𝕄) := by
      rw [held_split1, unscopedRest1_congr c (E2 m c) (fun b => W3 m c b) (fun b hb => W3_of_ne m c b hb)]
      exact sep_mono (arrays_out1 (E2 m) c (fun b => W3 m c b) (W3_out m c) (fun b hb => W3_of_ne m c b hb)) .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in

theorem run_outs : θ_run defs (onTc (τ := τ) (main (F := F))) ⟨m, fun _ => 0, ρ⟩ (fun r => ∀ c : Dev nD,
      r.2.mem ((c.tc : Thread nD τ).loc main_v0) = outs m 3 main_v0 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  GenV.frame_cond_val m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)

-- Every fair run ends with the result array at the second region's final contents and every argument unchanged.
theorem run_val : θ_run defs (onTc (τ := τ) (main (F := F))) ⟨m, fun _ => 0, ρ⟩ (fun r => ∀ c : Dev nD,
      r.2.mem ((c.tc : Thread nD τ).loc main_v0) = (dat1 (E2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (outs_3 m c), (h c).2⟩) (run_outs m ρ)

-- Every fair run ends with every argument unchanged.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_val m ρ)

end Cert.Kernel.Fr

end
-- ==== Proof.KI.Runs.lean ====
import proofs.«111596_g59545426591934_cont_9to1_m_1243_24_alg».proof.Proof.Gen.KernelIdeal.Launch
import proofs.«111596_g59545426591934_cont_9to1_m_1243_24_alg».proof.Proof.Gen.KernelIdeal.Skeleton
import proofs.«111596_g59545426591934_cont_9to1_m_1243_24_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The first body's branch condition, true exactly at the first grid point.
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

-- The second body's branch condition, true exactly at the first grid point.
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

abbrev VO0 : View sig .tc .vmem S129x5000 .f32 := (Memref.whole cc0_stg12_0 : Memref sig .tc .vmem S129x5000 .f32).view

abbrev VO1 : View sig .tc .vmem S1000x128 .f32 := (Memref.whole cc1_stg8_0 : Memref sig .tc .vmem S1000x128 .f32).view

abbrev scM1 : Memref sig .tc .vmem S128x5000 .f32 := Memref.whole cc1_scratch0
abbrev VS1 : View sig .tc .vmem S128x5000 .f32 := scM1.view

end Cert.KernelIdeal.Fr

end
-- ==== Proof.KI.Run0.lean ====
import proofs.«111596_g59545426591934_cont_9to1_m_1243_24_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid0.Coords) (arg1 : Memref sig .tc .vmem S200x128 .f32) (harg1 : arg1.IsWhole) (arg2 : Memref sig .tc .vmem S200x128 .f32) (harg2 : arg2.IsWhole) (arg3 : Memref sig .tc .vmem S200x128 .f32) (harg3 : arg3.IsWhole) (arg4 : Memref sig .tc .vmem S200x128 .f32) (harg4 : arg4.IsWhole) (arg5 : Memref sig .tc .vmem S200x128 .f32) (harg5 : arg5.IsWhole) (arg6 : Memref sig .tc .vmem S200x5000 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S129x5000 .f32) (harg13 : arg13.IsWhole)

-- The first body at the first grid point: the accumulator is zeroed, then updated by the five row blocks in turn; the run finds the list of stored pieces.
set_option maxHeartbeats 4000000 in
noncomputable def kernelRun0_A (hc0 : cond0 i)
    (x0 : Vec F S200x128 .f32) (x1 : Vec F S200x128 .f32) (x2 : Vec F S200x128 .f32) (x3 : Vec F S200x128 .f32) (x4 : Vec F S200x128 .f32) (h0 : Vec F S200x5000 .f32) (h1 : Vec F S200x5000 .f32) (h2 : Vec F S200x5000 .f32) (h3 : Vec F S200x5000 .f32) (h4 : Vec F S200x5000 .f32) (w : Vec F S128x128 .f32) (b : Vec F S1x128 .f32) :
    { L : List (View.Piece (Elt F) S129x5000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare h0 ∗ owns (c : Thread nD τ) arg7 fullShare h1 ∗ owns (c : Thread nD τ) arg8 fullShare h2 ∗ owns (c : Thread nD τ) arg9 fullShare h3 ∗ owns (c : Thread nD τ) arg10 fullShare h4 ∗ owns (c : Thread nD τ) arg11 fullShare w ∗ owns (c : Thread nD τ) arg12 fullShare b ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare h0 ∗ owns (c : Thread nD τ) arg7 fullShare h1 ∗ owns (c : Thread nD τ) arg8 fullShare h2 ∗ owns (c : Thread nD τ) arg9 fullShare h3 ∗ owns (c : Thread nD τ) arg10 fullShare h4 ∗ owns (c : Thread nD τ) arg11 fullShare w ∗ owns (c : Thread nD τ) arg12 fullShare b ∗ (∃ f, arg13.view.loc (c : Thread nD τ) ↦[arg13.view.set]{fullShare} arg13.view.writes (Elt F) f L)) -∗ K ⟨⟩))
          ⊢ wp frame (wpE (defs₀ (F := F)) Variants.none c none) E (cc0__pass1 i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__pass1_eq_skeleton]; unfold cc0__pass1_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact H12

-- The first body at a later point: the same five updates over the running contents `xo`.
set_option maxHeartbeats 4000000 in
noncomputable def kernelRun0_B (hc0 : ¬cond0 i)
    (x0 : Vec F S200x128 .f32) (x1 : Vec F S200x128 .f32) (x2 : Vec F S200x128 .f32) (x3 : Vec F S200x128 .f32) (x4 : Vec F S200x128 .f32) (h0 : Vec F S200x5000 .f32) (h1 : Vec F S200x5000 .f32) (h2 : Vec F S200x5000 .f32) (h3 : Vec F S200x5000 .f32) (h4 : Vec F S200x5000 .f32) (w : Vec F S128x128 .f32) (b : Vec F S1x128 .f32) (xo : Vec F S129x5000 .f32) :
    { L : List (View.Piece (Elt F) S129x5000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare h0 ∗ owns (c : Thread nD τ) arg7 fullShare h1 ∗ owns (c : Thread nD τ) arg8 fullShare h2 ∗ owns (c : Thread nD τ) arg9 fullShare h3 ∗ owns (c : Thread nD τ) arg10 fullShare h4 ∗ owns (c : Thread nD τ) arg11 fullShare w ∗ owns (c : Thread nD τ) arg12 fullShare b ∗ owns (c : Thread nD τ) arg13 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare h0 ∗ owns (c : Thread nD τ) arg7 fullShare h1 ∗ owns (c : Thread nD τ) arg8 fullShare h2 ∗ owns (c : Thread nD τ) arg9 fullShare h3 ∗ owns (c : Thread nD τ) arg10 fullShare h4 ∗ owns (c : Thread nD τ) arg11 fullShare w ∗ owns (c : Thread nD τ) arg12 fullShare b ∗ (∃ f, arg13.view.loc (c : Thread nD τ) ↦[arg13.view.set]{fullShare} arg13.view.writes (Elt F) f L)) -∗ K ⟨⟩))
          ⊢ wp frame (wpE (defs₀ (F := F)) Variants.none c none) E (cc0__pass1 i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__pass1_eq_skeleton]; unfold cc0__pass1_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact H12

end

end Cert.KernelIdeal.Fr

end
-- ==== Proof.KI.Dat0.lean ====
import proofs.«111596_g59545426591934_cont_9to1_m_1243_24_alg».proof.Proof.KI.Run0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the array the region finds.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S200x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x5000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x5000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x5000 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x5000 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x5000 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S129x5000 .f32 := win0_12.stage (cfg0.slots t 12)
abbrev hs0_12 (t : Fin cfg0.N) : (ms0_12 t).IsWhole := hstage0_12 ((cfg0.slots t 12).cast nbuf0_12)

section
variable (c : Dev nD) (i : grid0.Coords) (arg1 : Memref sig .tc .vmem S200x128 .f32) (harg1 : arg1.IsWhole) (arg2 : Memref sig .tc .vmem S200x128 .f32) (harg2 : arg2.IsWhole) (arg3 : Memref sig .tc .vmem S200x128 .f32) (harg3 : arg3.IsWhole) (arg4 : Memref sig .tc .vmem S200x128 .f32) (harg4 : arg4.IsWhole) (arg5 : Memref sig .tc .vmem S200x128 .f32) (harg5 : arg5.IsWhole) (arg6 : Memref sig .tc .vmem S200x5000 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S129x5000 .f32) (harg13 : arg13.IsWhole)

section
variable (hc0 : cond0 i) (x0 : Vec F S200x128 .f32) (x1 : Vec F S200x128 .f32) (x2 : Vec F S200x128 .f32) (x3 : Vec F S200x128 .f32) (x4 : Vec F S200x128 .f32) (h0 : Vec F S200x5000 .f32) (h1 : Vec F S200x5000 .f32) (h2 : Vec F S200x5000 .f32) (h3 : Vec F S200x5000 .f32) (h4 : Vec F S200x5000 .f32) (w : Vec F S128x128 .f32) (b : Vec F S1x128 .f32)

theorem cover0_A (y : S129x5000.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b).1 ![129, 40] (by sl_kernel_rfl) y

def out0_A : Vec F S129x5000 .f32 :=
  VO0.read (Elt F) (VO0.writes (Elt F) VO0.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b).1)

end

section
variable (hc0 : ¬cond0 i) (x0 : Vec F S200x128 .f32) (x1 : Vec F S200x128 .f32) (x2 : Vec F S200x128 .f32) (x3 : Vec F S200x128 .f32) (x4 : Vec F S200x128 .f32) (h0 : Vec F S200x5000 .f32) (h1 : Vec F S200x5000 .f32) (h2 : Vec F S200x5000 .f32) (h3 : Vec F S200x5000 .f32) (h4 : Vec F S200x5000 .f32) (w : Vec F S128x128 .f32) (b : Vec F S1x128 .f32) (xo : Vec F S129x5000 .f32)

theorem cover0_B (y : S129x5000.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b xo).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b xo).1 ![129, 40] (by sl_kernel_rfl) y

def out0_B : Vec F S129x5000 .f32 :=
  VO0.read (Elt F) (VO0.writes (Elt F) VO0.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b xo).1)

end

end

-- The accumulator after point `n`, by recursion on the point: zero plus the first point's updates, then each later point's over the one before.
def outsAt0 (c : Dev nD) : (n : ℕ) → n < cfg0.N → Vec F S129x5000 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (outsAt0 c n (Nat.lt_of_succ_lt hn))

theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (outsAt0 V c (t.val - 1) (Nat.lt_of_le_of_lt (Nat.sub_le _ _) t.isLt)) := by
  obtain ⟨n, hn⟩ := t
  cases n with
  | zero => exact absurd rfl h0
  | succ n => exact rfl

def q5 : Fin 5 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right
  | ⟨_ + 5, h⟩ => absurd h (Nat.not_lt.2 (Nat.le_add_left _ _))

-- The first region's proof data: each input window holds its block, the accumulator holds `outsAt0`.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => outsAt0 V c t.val t.isLt
  Φ _ := Pipeline.ΦA spec0 c
  q w := match w with
    | ⟨0, _⟩ => q5 0 | ⟨1, _⟩ => q5 1 | ⟨2, _⟩ => q5 2 | ⟨3, _⟩ => q5 3 | ⟨4, _⟩ => q5 4
    | ⟨5, _⟩ => q5 0 | ⟨6, _⟩ => q5 1 | ⟨7, _⟩ => q5 2 | ⟨8, _⟩ => q5 3 | ⟨9, _⟩ => q5 4
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = outsAt0 V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl
theorem before0_11 (c : Dev nD) (t : Fin cfg0.N) (d) : (dat0 V c).before 11 t d = iblk0 V c 11 t :=
  ((dat0 V c).before_in_eq_fetched 11 rfl (fun _ => rfl) (fun _ _ _ => rfl) (fun _ => rfl) t d).trans rfl

theorem before0_12_B (c : Dev nD) (t : Fin cfg0.N) (h0 : ¬t.val = 0) (d) :
    (dat0 V c).before 12 t d = outsAt0 V c (t.val - 1) (Nat.lt_of_le_of_lt (Nat.sub_le _ _) t.isLt) := by
  have hN : t.val < 10 := lt_of_lt_of_eq t.isLt (show cfg0.N = 10 from N_0)
  rw [Dat.before_out_kept _ 12 rfl t h0 (Bool.eq_false_iff.mpr fun h => by have := (flush0_12 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t))

-- At every point the body takes what the data say it finds to what they say it leaves.
set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  by_cases h0 : t.val = 0
  · rw [outsAt0_A V c t h0]
    unfold out0_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)).2 Set.univ _)
    iframe H0 H1 H2 H3 H4 H5 H6 H7 H8 H9 H10 H11
    isplitl [H12]; · iexists _; iexact H12
    iintro ⟨H0, H1, H2, H3, H4, H5, H6, H7, H8, H9, H10, H11, ⟨%e12, H12⟩⟩
    isplitl [HΦ]; · iexact HΦ
    iframe Ho H0 H1 H2 H3 H4 H5 H6 H7 H8 H9 H10 H11
    unfold owns; iexists _; isplitr
    swap; · iexact H12
    ipureintro; exact View.read_writes_of_cover _ _ _ _ _ (cover0_A c _ _ _ _ _ _ _ _ _ _ _ _ _ _ _ _ _ _ _ _ _ _ _ _ _ _ _ _ _ _ _ _ _ _ _ _ _ _ _ _)
  · rw [outsAt0_B V c t h0]
    simp only [before0_12_B V c t h0]
    unfold out0_B
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _).2 Set.univ _)
    iframe H0 H1 H2 H3 H4 H5 H6 H7 H8 H9 H10 H11 H12
    iintro ⟨H0, H1, H2, H3, H4, H5, H6, H7, H8, H9, H10, H11, ⟨%e12, H12⟩⟩
    isplitl [HΦ]; · iexact HΦ
    iframe Ho H0 H1 H2 H3 H4 H5 H6 H7 H8 H9 H10 H11
    unfold owns; iexists _; isplitr
    swap; · iexact H12
    ipureintro; exact View.read_writes_of_cover _ _ _ _ _ (cover0_B c _ _ _ _ _ _ _ _ _ _ _ _ _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Run1.lean ====
import proofs.«111596_g59545426591934_cont_9to1_m_1243_24_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid1.Coords) (arg1 : Memref sig .tc .vmem S200x5000 .f32) (harg1 : arg1.IsWhole) (arg2 : Memref sig .tc .vmem S200x5000 .f32) (harg2 : arg2.IsWhole) (arg3 : Memref sig .tc .vmem S200x5000 .f32) (harg3 : arg3.IsWhole) (arg4 : Memref sig .tc .vmem S200x5000 .f32) (harg4 : arg4.IsWhole) (arg5 : Memref sig .tc .vmem S200x5000 .f32) (harg5 : arg5.IsWhole) (arg6 : Memref sig .tc .vmem S129x5000 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S128x5000 .f32) (harg10 : arg10.IsWhole)

-- The second body at the first grid point: the scaled array is written to the scratch, then the five row bands of the output.
set_option maxHeartbeats 4000000 in
noncomputable def kernelRun1_A (hc0 : cond1 i)
    (h0 : Vec F S200x5000 .f32) (h1 : Vec F S200x5000 .f32) (h2 : Vec F S200x5000 .f32) (h3 : Vec F S200x5000 .f32) (h4 : Vec F S200x5000 .f32) (zT : Vec F S129x5000 .f32) (g : Vec F S1x128 .f32) (be : Vec F S1x128 .f32) :
    Σ' (L : List (View.Piece (Elt F) S1000x128 .f32)), { LS : List (View.Piece (Elt F) S128x5000 .f32) //
      ∀ (E : Set ℕ) (K : PUnit → sProp 𝕄),
        iprop(owns (c : Thread nD τ) arg1 fullShare h0 ∗ owns (c : Thread nD τ) arg2 fullShare h1 ∗ owns (c : Thread nD τ) arg3 fullShare h2 ∗ owns (c : Thread nD τ) arg4 fullShare h3 ∗ owns (c : Thread nD τ) arg5 fullShare h4 ∗ owns (c : Thread nD τ) arg6 fullShare zT ∗ owns (c : Thread nD τ) arg7 fullShare g ∗ owns (c : Thread nD τ) arg8 fullShare be ∗ (∃ d, owns (c : Thread nD τ) arg9 fullShare d) ∗ (∃ d, owns (c : Thread nD τ) arg10 fullShare d)
            ∗ (iprop(owns (c : Thread nD τ) arg1 fullShare h0 ∗ owns (c : Thread nD τ) arg2 fullShare h1 ∗ owns (c : Thread nD τ) arg3 fullShare h2 ∗ owns (c : Thread nD τ) arg4 fullShare h3 ∗ owns (c : Thread nD τ) arg5 fullShare h4 ∗ owns (c : Thread nD τ) arg6 fullShare zT ∗ owns (c : Thread nD τ) arg7 fullShare g ∗ owns (c : Thread nD τ) arg8 fullShare be ∗ (∃ f, arg9.view.loc (c : Thread nD τ) ↦[arg9.view.set]{fullShare} arg9.view.writes (Elt F) f L) ∗ (∃ f, arg10.view.loc (c : Thread nD τ) ↦[arg10.view.set]{fullShare} arg10.view.writes (Elt F) f LS)) -∗ K ⟨⟩))
          ⊢ wp frame (wpE (defs₀ (F := F)) Variants.none c none) E (cc1__pass2 i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__pass2_eq_skeleton]; unfold cc1__pass2_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

-- The second body at a later point, the scratch holding the scaled array `zs`.
set_option maxHeartbeats 4000000 in
noncomputable def kernelRun1_B (hc0 : ¬cond1 i)
    (h0 : Vec F S200x5000 .f32) (h1 : Vec F S200x5000 .f32) (h2 : Vec F S200x5000 .f32) (h3 : Vec F S200x5000 .f32) (h4 : Vec F S200x5000 .f32) (zT : Vec F S129x5000 .f32) (g : Vec F S1x128 .f32) (be : Vec F S1x128 .f32) (zs : Vec F S128x5000 .f32) :
    { L : List (View.Piece (Elt F) S1000x128 .f32) //
      ∀ (E : Set ℕ) (K : PUnit → sProp 𝕄),
        iprop(owns (c : Thread nD τ) arg1 fullShare h0 ∗ owns (c : Thread nD τ) arg2 fullShare h1 ∗ owns (c : Thread nD τ) arg3 fullShare h2 ∗ owns (c : Thread nD τ) arg4 fullShare h3 ∗ owns (c : Thread nD τ) arg5 fullShare h4 ∗ owns (c : Thread nD τ) arg6 fullShare zT ∗ owns (c : Thread nD τ) arg7 fullShare g ∗ owns (c : Thread nD τ) arg8 fullShare be ∗ (∃ d, owns (c : Thread nD τ) arg9 fullShare d) ∗ owns (c : Thread nD τ) arg10 fullShare zs
            ∗ (iprop(owns (c : Thread nD τ) arg1 fullShare h0 ∗ owns (c : Thread nD τ) arg2 fullShare h1 ∗ owns (c : Thread nD τ) arg3 fullShare h2 ∗ owns (c : Thread nD τ) arg4 fullShare h3 ∗ owns (c : Thread nD τ) arg5 fullShare h4 ∗ owns (c : Thread nD τ) arg6 fullShare zT ∗ owns (c : Thread nD τ) arg7 fullShare g ∗ owns (c : Thread nD τ) arg8 fullShare be ∗ (∃ f, arg9.view.loc (c : Thread nD τ) ↦[arg9.view.set]{fullShare} arg9.view.writes (Elt F) f L) ∗ owns (c : Thread nD τ) arg10 fullShare zs) -∗ K ⟨⟩))
          ⊢ wp frame (wpE (defs₀ (F := F)) Variants.none c none) E (cc1__pass2 i arg1 harg1 arg2 harg2 arg3 harg3 arg4 harg4 arg5 harg5 arg6 harg6 arg7 harg7 arg8 harg8 arg9 harg9 arg10 harg10) K } := by
  refine ⟨?_, fun E K => ?run⟩
  case run =>
    simp only [cc1__pass2_eq_skeleton]; unfold cc1__pass2_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; isplitr; · ipureintro; exact harg10.read_unread _
    iexact H9

end

end Cert.KernelIdeal.Fr

end
-- ==== Proof.KI.Dat1.lean ====
import proofs.«111596_g59545426591934_cont_9to1_m_1243_24_alg».proof.Proof.KI.Run1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the array the region finds.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S200x5000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S200x5000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S200x5000 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S200x5000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S200x5000 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S129x5000 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1000x128 .f32 := win1_8.stage (cfg1.slots t 8)
abbrev hs1_8 (t : Fin cfg1.N) : (ms1_8 t).IsWhole := hstage1_8 ((cfg1.slots t 8).cast nbuf1_8)

section
variable (c : Dev nD) (i : grid1.Coords) (arg1 : Memref sig .tc .vmem S200x5000 .f32) (harg1 : arg1.IsWhole) (arg2 : Memref sig .tc .vmem S200x5000 .f32) (harg2 : arg2.IsWhole) (arg3 : Memref sig .tc .vmem S200x5000 .f32) (harg3 : arg3.IsWhole) (arg4 : Memref sig .tc .vmem S200x5000 .f32) (harg4 : arg4.IsWhole) (arg5 : Memref sig .tc .vmem S200x5000 .f32) (harg5 : arg5.IsWhole) (arg6 : Memref sig .tc .vmem S129x5000 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S128x5000 .f32) (harg10 : arg10.IsWhole)

section
variable (hc0 : cond1 i) (h0 : Vec F S200x5000 .f32) (h1 : Vec F S200x5000 .f32) (h2 : Vec F S200x5000 .f32) (h3 : Vec F S200x5000 .f32) (h4 : Vec F S200x5000 .f32) (zT : Vec F S129x5000 .f32) (g : Vec F S1x128 .f32) (be : Vec F S1x128 .f32)

theorem cover1_A (y : S1000x128.Idx) :
    ∃ pc ∈ (kernelRun1_A c i arg1 harg1 arg2 harg2 arg3 harg3 arg4 harg4 arg5 harg5 arg6 harg6 arg7 harg7 arg8 harg8 arg9 harg9 arg10 harg10 hc0 h0 h1 h2 h3 h4 zT g be).1, y ∈ pc.1.set :=
  View.cover_of_tiledL (kernelRun1_A c i arg1 harg1 arg2 harg2 arg3 harg3 arg4 harg4 arg5 harg5 arg6 harg6 arg7 harg7 arg8 harg8 arg9 harg9 arg10 harg10 hc0 h0 h1 h2 h3 h4 zT g be).1 S200x128.size (by sl_kernel_rfl) y

def out1_A : Vec F S1000x128 .f32 :=
  VO1.read (Elt F) (VO1.writes (Elt F) VO1.junk (kernelRun1_A c i arg1 harg1 arg2 harg2 arg3 harg3 arg4 harg4 arg5 harg5 arg6 harg6 arg7 harg7 arg8 harg8 arg9 harg9 arg10 harg10 hc0 h0 h1 h2 h3 h4 zT g be).1)

theorem scover1_A (y : S128x5000.Idx) :
    ∃ pc ∈ (kernelRun1_A c i arg1 harg1 arg2 harg2 arg3 harg3 arg4 harg4 arg5 harg5 arg6 harg6 arg7 harg7 arg8 harg8 arg9 harg9 arg10 harg10 hc0 h0 h1 h2 h3 h4 zT g be).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 h0 h1 h2 h3 h4 zT g be).2.1 S128x5000.size (by sl_kernel_rfl) y

def sout1_A : Vec F S128x5000 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 hc0 h0 h1 h2 h3 h4 zT g be).2.1)

end

section
variable (hc0 : ¬cond1 i) (h0 : Vec F S200x5000 .f32) (h1 : Vec F S200x5000 .f32) (h2 : Vec F S200x5000 .f32) (h3 : Vec F S200x5000 .f32) (h4 : Vec F S200x5000 .f32) (zT : Vec F S129x5000 .f32) (g : Vec F S1x128 .f32) (be : Vec F S1x128 .f32) (zs : Vec F S128x5000 .f32)

theorem cover1_B (y : S1000x128.Idx) :
    ∃ pc ∈ (kernelRun1_B c i arg1 harg1 arg2 harg2 arg3 harg3 arg4 harg4 arg5 harg5 arg6 harg6 arg7 harg7 arg8 harg8 arg9 harg9 arg10 harg10 hc0 h0 h1 h2 h3 h4 zT g be zs).1, y ∈ pc.1.set :=
  View.cover_of_tiledL (kernelRun1_B c i arg1 harg1 arg2 harg2 arg3 harg3 arg4 harg4 arg5 harg5 arg6 harg6 arg7 harg7 arg8 harg8 arg9 harg9 arg10 harg10 hc0 h0 h1 h2 h3 h4 zT g be zs).1 S200x128.size (by sl_kernel_rfl) y

def out1_B : Vec F S1000x128 .f32 :=
  VO1.read (Elt F) (VO1.writes (Elt F) VO1.junk (kernelRun1_B c i arg1 harg1 arg2 harg2 arg3 harg3 arg4 harg4 arg5 harg5 arg6 harg6 arg7 harg7 arg8 harg8 arg9 harg9 arg10 harg10 hc0 h0 h1 h2 h3 h4 zT g be zs).1)

end

end

abbrev t1z : Fin cfg1.N := ⟨0, by rw [show cfg1.N = 10 from N_1]; decide⟩

-- The scratch from the first point on.
def sAt1 (c : Dev nD) : Vec F S128x5000 .f32 :=
  sout1_A c (grid1.coords t1z) (ms1_0 t1z) (hs1_0 t1z) (ms1_1 t1z) (hs1_1 t1z) (ms1_2 t1z) (hs1_2 t1z) (ms1_3 t1z) (hs1_3 t1z) (ms1_4 t1z) (hs1_4 t1z) (ms1_5 t1z) (hs1_5 t1z) (ms1_6 t1z) (hs1_6 t1z) (ms1_7 t1z) (hs1_7 t1z) (ms1_8 t1z) (hs1_8 t1z) scM1 (Memref.isWhole_whole _) ((hcond1 t1z).mpr (show (t1z : Fin cfg1.N).val = 0 from rfl)) (iblk1 V c 0 t1z) (iblk1 V c 1 t1z) (iblk1 V c 2 t1z) (iblk1 V c 3 t1z) (iblk1 V c 4 t1z) (iblk1 V c 5 t1z) (iblk1 V c 6 t1z) (iblk1 V c 7 t1z)

-- The output block after point `t`.
def outsAt1 (c : Dev nD) (t : Fin cfg1.N) : Vec F S1000x128 .f32 :=
  if h0 : t.val = 0 then out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1 t).mpr h0) (iblk1 V c 0 t) (iblk1 V c 1 t) (iblk1 V c 2 t) (iblk1 V c 3 t) (iblk1 V c 4 t) (iblk1 V c 5 t) (iblk1 V c 6 t) (iblk1 V c 7 t)
  else out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1 t).mp h)) (iblk1 V c 0 t) (iblk1 V c 1 t) (iblk1 V c 2 t) (iblk1 V c 3 t) (iblk1 V c 4 t) (iblk1 V c 5 t) (iblk1 V c 6 t) (iblk1 V c 7 t) (sAt1 V c)

theorem outsAt1_A (c : Dev nD) (t : Fin cfg1.N) (h0 : t.val = 0) :
    outsAt1 V c t = out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1 t).mpr h0) (iblk1 V c 0 t) (iblk1 V c 1 t) (iblk1 V c 2 t) (iblk1 V c 3 t) (iblk1 V c 4 t) (iblk1 V c 5 t) (iblk1 V c 6 t) (iblk1 V c 7 t) := dif_pos h0
theorem outsAt1_B (c : Dev nD) (t : Fin cfg1.N) (h0 : ¬t.val = 0) :
    outsAt1 V c t = out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1 t).mp h)) (iblk1 V c 0 t) (iblk1 V c 1 t) (iblk1 V c 2 t) (iblk1 V c 3 t) (iblk1 V c 4 t) (iblk1 V c 5 t) (iblk1 V c 6 t) (iblk1 V c 7 t) (sAt1 V c) := dif_neg h0

def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ X)

theorem PhiA1_eq (c : Dev nD) :
    (Pipeline.ΦA spec1 c : sProp 𝕄) = iprop(restWith c (iprop(∃ d, owns (c : Thread nD τ) scM1 fullShare d)) ∗ (∃ r, prngReg c r)) := by
  unfold Pipeline.ΦA restWith; rw [scopedRest1_eq]; simp only [scM1, owns_whole]; try rfl

def PhiS1 (c : Dev nD) : (n : ℕ) → n ≤ cfg1.N → sProp 𝕄
  | 0, _ => Pipeline.ΦA spec1 c
  | _ + 1, _ => iprop(restWith c (owns (c : Thread nD τ) scM1 fullShare (sAt1 V c)) ∗ (∃ r, prngReg c r))

theorem PhiS1_zero (c : Dev nD) (n : ℕ) (h : n ≤ cfg1.N) (hz : n = 0) : PhiS1 V c n h = Pipeline.ΦA spec1 c := by
  subst hz; rfl
theorem PhiS1_pos (c : Dev nD) (n : ℕ) (h : n ≤ cfg1.N) (hz : n ≠ 0) :
    PhiS1 V c n h = iprop(restWith c (owns (c : Thread nD τ) scM1 fullShare (sAt1 V c)) ∗ (∃ r, prngReg c r)) := by
  cases n with
  | zero => exact absurd rfl hz
  | succ n => rfl

def q5' : Fin 5 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right
  | ⟨_ + 5, h⟩ => absurd h (Nat.not_lt.2 (Nat.le_add_left _ _))

-- The second region's proof data: each input window holds its block, the output window holds `outsAt1`.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outsAt1 V c t
  Φ t := PhiS1 V c t.val (Nat.le_of_lt_succ t.isLt)
  q w := match w with
    | ⟨0, _⟩ => q5' 0 | ⟨1, _⟩ => q5' 1 | ⟨2, _⟩ => q5' 2 | ⟨3, _⟩ => q5' 3 | ⟨4, _⟩ => q5' 4
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outsAt1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

-- At every point the body takes what the data say it finds to what they say it leaves.
set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    show (dat1 V c).Φ t.succ = PhiS1 V c (t.val + 1) t.isLt from rfl, PhiS1_pos V c _ _ (Nat.succ_ne_zero _),
    after1_0, after1_1, after1_2, after1_3, after1_4, after1_5, after1_6, after1_7, after1_8]
  by_cases h0 : t.val = 0
  · obtain rfl : t = t1z := Fin.ext h0
    rw [outsAt1_A V c t1z (show (t1z : Fin cfg1.N).val = 0 from rfl), PhiS1_castSucc V c t1z, PhiS1_zero V c _ _ rfl, PhiA1_eq]
    unfold out1_A sAt1 sout1_A restWith
    iintro ⟨⟨⟨E0, E1, E2, E3, E4, E5, E6, E7, E8, E9, E10, E11, E12, E13, E14, E15, E16, E17, E18, E19, E20, E21, E22, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t1z) _ _ _ _ _ _ _ _ _ _ _ _ _ _ _ _ _ _ _ _ ((hcond1 t1z).mpr (show (t1z : Fin cfg1.N).val = 0 from rfl)) (iblk1 V c 0 t1z) (iblk1 V c 1 t1z) (iblk1 V c 2 t1z) (iblk1 V c 3 t1z) (iblk1 V c 4 t1z) (iblk1 V c 5 t1z) (iblk1 V c 6 t1z) (iblk1 V c 7 t1z)).2.2 Set.univ _)
    iframe H0 H1 H2 H3 H4 H5 H6 H7
    isplitl [H8]; · iexists _; iexact H8
    isplitl [HS]; · iexact HS
    iintro ⟨H0, H1, H2, H3, H4, H5, H6, H7, ⟨%e8, H8⟩, ⟨%es, HS⟩⟩
    isplitl [E0 E1 E2 E3 E4 E5 E6 E7 E8 E9 E10 E11 E12 E13 E14 E15 E16 E17 E18 E19 E20 E21 E22 HS Hg]
    · isplitr [Hg]
      swap; · iexact Hg
      iframe E0 E1 E2 E3 E4 E5 E6 E7 E8 E9 E10 E11 E12 E13 E14 E15 E16 E17 E18 E19 E20 E21 E22
      unfold owns; iexists _; isplitr
      swap; · iexact HS
      ipureintro; exact View.read_writes_of_cover _ _ _ _ _ (scover1_A c _ _ _ _ _ _ _ _ _ _ _ _ _ _ _ _ _ _ _ _ _ _ _ _ _ _ _ _ _ _)
    iframe Ho H0 H1 H2 H3 H4 H5 H6 H7
    unfold owns; iexists _; isplitr
    swap; · iexact H8
    ipureintro; exact View.read_writes_of_cover _ _ _ _ _ (cover1_A c _ _ _ _ _ _ _ _ _ _ _ _ _ _ _ _ _ _ _ _ _ _ _ _ _ _ _ _ _ _)
  · rw [outsAt1_B V c t h0, PhiS1_castSucc V c t, PhiS1_pos V c _ _ h0]
    unfold out1_B restWith
    iintro ⟨⟨⟨E0, E1, E2, E3, E4, E5, E6, E7, E8, E9, E10, E11, E12, E13, E14, E15, E16, E17, E18, E19, E20, E21, E22, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) _ _ _ _ _ _ _ _ _ _ _ _ _ _ _ _ _ _ _ _ (fun h => h0 ((hcond1 t).mp h)) (iblk1 V c 0 t) (iblk1 V c 1 t) (iblk1 V c 2 t) (iblk1 V c 3 t) (iblk1 V c 4 t) (iblk1 V c 5 t) (iblk1 V c 6 t) (iblk1 V c 7 t) (sAt1 V c)).2 Set.univ _)
    iframe H0 H1 H2 H3 H4 H5 H6 H7
    isplitl [H8]; · iexists _; iexact H8
    isplitl [HS]; · iexact HS
    iintro ⟨H0, H1, H2, H3, H4, H5, H6, H7, ⟨%e8, H8⟩, HS⟩
    isplitl [E0 E1 E2 E3 E4 E5 E6 E7 E8 E9 E10 E11 E12 E13 E14 E15 E16 E17 E18 E19 E20 E21 E22 HS Hg]
    · isplitr [Hg]
      swap; · iexact Hg
      iframe E0 E1 E2 E3 E4 E5 E6 E7 E8 E9 E10 E11 E12 E13 E14 E15 E16 E17 E18 E19 E20 E21 E22
      iexact HS
    iframe Ho H0 H1 H2 H3 H4 H5 H6 H7
    unfold owns; iexists _; isplitr
    swap; · iexact H8
    ipureintro; exact View.read_writes_of_cover _ _ _ _ _ (cover1_B c _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Shares.lean ====
import proofs.«111596_g59545426591934_cont_9to1_m_1243_24_alg».proof.Proof.KI.Dat0
import proofs.«111596_g59545426591934_cont_9to1_m_1243_24_alg».proof.Proof.KI.Dat1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The full share cut in five: left halves down the right spine of the share tree.
theorem split5 {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right.left} f)
      ∗ (ℓ ↦{fullShare.right.right.right.left} f) ∗ ℓ ↦{fullShare.right.right.right.right} f) :=
  (pointsTo_share (PosShare.mem_left_op_right _)).trans <| sep_congr_right <|
  (pointsTo_share (PosShare.mem_left_op_right _)).trans <| sep_congr_right <|
  (pointsTo_share (PosShare.mem_left_op_right _)).trans <| sep_congr_right <|
  (pointsTo_share (PosShare.mem_left_op_right _))

theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
        ∗ (((c : Thread nD τ).loc main_arg2) ↦{fullShare} V' main_arg2) ∗ (((c : Thread nD τ).loc main_call0_v0) ↦{fullShare} V' main_call0_v0)
        ∗ (((c : Thread nD τ).loc main_call0_v3) ↦{fullShare} V' main_call0_v3)) := by
  unfold Pipeline.arrBufs
  exact bigSep_eq_bigSepL_of_eq [main_arg0, main_arg1, main_arg2, main_call0_v0, main_call0_v3] (by decide) (by decide) _

theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_call0_v3) ↦{fullShare} V' main_call0_v3)
        ∗ (((c : Thread nD τ).loc main_call0_v1) ↦{fullShare} V' main_call0_v1) ∗ (((c : Thread nD τ).loc main_call0_v2) ↦{fullShare} V' main_call0_v2)
        ∗ (((c : Thread nD τ).loc main_v0) ↦{fullShare} V' main_v0)) := by
  unfold Pipeline.arrBufs
  exact bigSep_eq_bigSepL_of_eq [main_arg1, main_call0_v3, main_call0_v1, main_call0_v2, main_v0] (by decide) (by decide) _

theorem share0_0 (c : Dev nD) : (dat0 V c).share (0 : Fin 13) = fullShare.left := rfl
theorem share0_1 (c : Dev nD) : (dat0 V c).share (1 : Fin 13) = fullShare.right.left := rfl
theorem share0_2 (c : Dev nD) : (dat0 V c).share (2 : Fin 13) = fullShare.right.right.left := rfl
theorem share0_3 (c : Dev nD) : (dat0 V c).share (3 : Fin 13) = fullShare.right.right.right.left := rfl
theorem share0_4 (c : Dev nD) : (dat0 V c).share (4 : Fin 13) = fullShare.right.right.right.right := rfl
theorem share0_5 (c : Dev nD) : (dat0 V c).share (5 : Fin 13) = fullShare.left := rfl
theorem share0_6 (c : Dev nD) : (dat0 V c).share (6 : Fin 13) = fullShare.right.left := rfl
theorem share0_7 (c : Dev nD) : (dat0 V c).share (7 : Fin 13) = fullShare.right.right.left := rfl
theorem share0_8 (c : Dev nD) : (dat0 V c).share (8 : Fin 13) = fullShare.right.right.right.left := rfl
theorem share0_9 (c : Dev nD) : (dat0 V c).share (9 : Fin 13) = fullShare.right.right.right.right := rfl
theorem share0_10 (c : Dev nD) : (dat0 V c).share (10 : Fin 13) = fullShare := rfl
theorem share0_11 (c : Dev nD) : (dat0 V c).share (11 : Fin 13) = fullShare := rfl
theorem share0_12 (c : Dev nD) : (dat0 V c).share (12 : Fin 13) = fullShare := rfl

-- Five windows read each of two arrays: each array's full share is cut in five, one piece a window.
theorem arrays_in0 (c : Dev nD) :
    (Pipeline.arrBufs (Ix := Unit) (Name := ℕ) (U := UR sig nD τ) (Lvl := ℕ) spec0 c (V c) : sProp 𝕄) ⊢ (dat0 V c).arrays ((dat0 V c).arrAt · 0) := by
  have a (w : Fin 13) : (dat0 V c).arrAt w 0 = V c (Pipeline.arrRef spec0 w) := (rfl : (dat0 V c).arrAt w 0 = (dat0 V c).A w).trans (A_eq0 V c w)
  unfold Dat.arrays
  rw [arrBufs0_eq, bigSep_W0]
  simp only [View.set_whole, share0_0 V c, share0_1 V c, share0_2 V c, share0_3 V c, share0_4 V c, share0_5 V c, share0_6 V c, share0_7 V c, share0_8 V c, share0_9 V c, share0_10 V c, share0_11 V c, share0_12 V c, a]
  iintro ⟨X, H, W, B, O⟩
  ihave X := (split5 _).1 $$ X
  icases X with ⟨X0, X1, X2, X3, X4⟩
  ihave H := (split5 _).1 $$ H
  icases H with ⟨H0, H1, H2, H3, H4⟩
  iframe X0 X1 X2 X3 X4 H0 H1 H2 H3 H4 W B O

-- The five pieces of each shared array join to the full share again; the accumulator's array is at its final contents.
theorem arrays_out0 (c : Dev nD) (V' : (b : Ref sig .tc) → Buf (Elt F) ((c : Thread nD τ).loc b))
    (hout : V' main_call0_v3 = (dat0 V c).arrAt 12 cfg0.N) (hrest : ∀ b, b ≠ main_call0_v3 → V' b = V c b) :
    (dat0 V c).arrays ((dat0 V c).arrAt · cfg0.N) ⊢ (Pipeline.arrBufs (Ix := Unit) (Name := ℕ) (U := UR sig nD τ) (Lvl := ℕ) spec0 c V' : sProp 𝕄) := by
  have a (b : Ref sig .tc) (hb : b ≠ main_call0_v3) {X : Buf (Elt F) ((c : Thread nD τ).loc b)} (h : X = V c b) : X = V' b := h.trans (hrest b hb).symm
  unfold Dat.arrays
  rw [arrBufs0_eq, bigSep_W0]
  simp only [View.set_whole, share0_0 V c, share0_1 V c, share0_2 V c, share0_3 V c, share0_4 V c, share0_5 V c, share0_6 V c, share0_7 V c, share0_8 V c, share0_9 V c, share0_10 V c, share0_11 V c, share0_12 V c, a main_arg0 (by decide) (((dat0 V c).arrAt_in 0 rfl _).trans (A_eq0 V c 0)),
    a main_arg0 (by decide) (((dat0 V c).arrAt_in 1 rfl _).trans (A_eq0 V c 1)),
    a main_arg0 (by decide) (((dat0 V c).arrAt_in 2 rfl _).trans (A_eq0 V c 2)),
    a main_arg0 (by decide) (((dat0 V c).arrAt_in 3 rfl _).trans (A_eq0 V c 3)),
    a main_arg0 (by decide) (((dat0 V c).arrAt_in 4 rfl _).trans (A_eq0 V c 4)),
    a main_arg1 (by decide) (((dat0 V c).arrAt_in 5 rfl _).trans (A_eq0 V c 5)),
    a main_arg1 (by decide) (((dat0 V c).arrAt_in 6 rfl _).trans (A_eq0 V c 6)),
    a main_arg1 (by decide) (((dat0 V c).arrAt_in 7 rfl _).trans (A_eq0 V c 7)),
    a main_arg1 (by decide) (((dat0 V c).arrAt_in 8 rfl _).trans (A_eq0 V c 8)),
    a main_arg1 (by decide) (((dat0 V c).arrAt_in 9 rfl _).trans (A_eq0 V c 9)),
    a main_arg2 (by decide) (((dat0 V c).arrAt_in 10 rfl _).trans (A_eq0 V c 10)),
    a main_call0_v0 (by decide) (((dat0 V c).arrAt_in 11 rfl _).trans (A_eq0 V c 11)), hout.symm]
  iintro ⟨X0, X1, X2, X3, X4, H0, H1, H2, H3, H4, W, B, O⟩
  isplitl [X0 X1 X2 X3 X4]
  · iapply (split5 _).2
    iframe X0 X1 X2 X3 X4
  isplitl [H0 H1 H2 H3 H4]
  · iapply (split5 _).2
    iframe H0 H1 H2 H3 H4
  iframe W B O

theorem share1_0 (c : Dev nD) : (dat1 V c).share (0 : Fin 9) = fullShare.left := rfl
theorem share1_1 (c : Dev nD) : (dat1 V c).share (1 : Fin 9) = fullShare.right.left := rfl
theorem share1_2 (c : Dev nD) : (dat1 V c).share (2 : Fin 9) = fullShare.right.right.left := rfl
theorem share1_3 (c : Dev nD) : (dat1 V c).share (3 : Fin 9) = fullShare.right.right.right.left := rfl
theorem share1_4 (c : Dev nD) : (dat1 V c).share (4 : Fin 9) = fullShare.right.right.right.right := rfl
theorem share1_5 (c : Dev nD) : (dat1 V c).share (5 : Fin 9) = fullShare := rfl
theorem share1_6 (c : Dev nD) : (dat1 V c).share (6 : Fin 9) = fullShare := rfl
theorem share1_7 (c : Dev nD) : (dat1 V c).share (7 : Fin 9) = fullShare := rfl
theorem share1_8 (c : Dev nD) : (dat1 V c).share (8 : Fin 9) = fullShare := rfl

theorem arrays_in1 (c : Dev nD) :
    (Pipeline.arrBufs (Ix := Unit) (Name := ℕ) (U := UR sig nD τ) (Lvl := ℕ) spec1 c (V c) : sProp 𝕄) ⊢ (dat1 V c).arrays ((dat1 V c).arrAt · 0) := by
  have a (w : Fin 9) : (dat1 V c).arrAt w 0 = V c (Pipeline.arrRef spec1 w) := (rfl : (dat1 V c).arrAt w 0 = (dat1 V c).A w).trans (A_eq1 V c w)
  unfold Dat.arrays
  rw [arrBufs1_eq, bigSep_W1]
  simp only [View.set_whole, share1_0 V c, share1_1 V c, share1_2 V c, share1_3 V c, share1_4 V c, share1_5 V c, share1_6 V c, share1_7 V c, share1_8 V c, a]
  iintro ⟨H, Z, G, B, O⟩
  ihave H := (split5 _).1 $$ H
  icases H with ⟨H0, H1, H2, H3, H4⟩
  iframe H0 H1 H2 H3 H4 Z G B O

theorem arrays_out1 (c : Dev nD) (V' : (b : Ref sig .tc) → Buf (Elt F) ((c : Thread nD τ).loc b))
    (hout : V' main_v0 = (dat1 V c).arrAt 8 cfg1.N) (hrest : ∀ b, b ≠ main_v0 → V' b = V c b) :
    (dat1 V c).arrays ((dat1 V c).arrAt · cfg1.N) ⊢ (Pipeline.arrBufs (Ix := Unit) (Name := ℕ) (U := UR sig nD τ) (Lvl := ℕ) spec1 c V' : sProp 𝕄) := by
  have a (b : Ref sig .tc) (hb : b ≠ main_v0) {X : Buf (Elt F) ((c : Thread nD τ).loc b)} (h : X = V c b) : X = V' b := h.trans (hrest b hb).symm
  unfold Dat.arrays
  rw [arrBufs1_eq, bigSep_W1]
  simp only [View.set_whole, share1_0 V c, share1_1 V c, share1_2 V c, share1_3 V c, share1_4 V c, share1_5 V c, share1_6 V c, share1_7 V c, share1_8 V c, a main_arg1 (by decide) (((dat1 V c).arrAt_in 0 rfl _).trans (A_eq1 V c 0)),
    a main_arg1 (by decide) (((dat1 V c).arrAt_in 1 rfl _).trans (A_eq1 V c 1)),
    a main_arg1 (by decide) (((dat1 V c).arrAt_in 2 rfl _).trans (A_eq1 V c 2)),
    a main_arg1 (by decide) (((dat1 V c).arrAt_in 3 rfl _).trans (A_eq1 V c 3)),
    a main_arg1 (by decide) (((dat1 V c).arrAt_in 4 rfl _).trans (A_eq1 V c 4)),
    a main_call0_v3 (by decide) (((dat1 V c).arrAt_in 5 rfl _).trans (A_eq1 V c 5)),
    a main_call0_v1 (by decide) (((dat1 V c).arrAt_in 6 rfl _).trans (A_eq1 V c 6)),
    a main_call0_v2 (by decide) (((dat1 V c).arrAt_in 7 rfl _).trans (A_eq1 V c 7)), hout.symm]
  iintro ⟨H0, H1, H2, H3, H4, Z, G, B, O⟩
  isplitl [H0 H1 H2 H3 H4]
  · iapply (split5 _).2
    iframe H0 H1 H2 H3 H4
  iframe Z G B O

end Cert.KernelIdeal.Fr

end
-- ==== Proof.KI.Regions.lean ====
import proofs.«111596_g59545426591934_cont_9to1_m_1243_24_alg».proof.Proof.KI.Shares
import proofs.«111596_g59545426591934_cont_9to1_m_1243_24_alg».proof.Proof.KI.RegionsVal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E1 : (c : Dev nD) → (b : Ref sig .tc) → Buf (Elt F) ((c : Thread nD τ).loc b) := fun c b => Gen.V1 m c b

-- The arrays after the first region: its output array replaced, the rest as entered.
def W2 (c : Dev nD) : Valuation τ sig (Elt F) :=
  Function.update (Gen.V1 m c) main_call0_v3 ((dat0 (E1 m) c).arrAt 12 cfg0.N)

abbrev E2 : (c : Dev nD) → (b : Ref sig .tc) → Buf (Elt F) ((c : Thread nD τ).loc b) := fun c b => W2 m c b

-- The arrays after the second region.
def W3 (c : Dev nD) : Valuation τ sig (Elt F) :=
  Function.update (W2 m c) main_v0 ((dat1 (E2 m) c).arrAt 8 cfg1.N)

def outs : Gen.Outs (F := F) := fun _ r c => W3 m c r

theorem W2_out (c : Dev nD) : W2 m c main_call0_v3 = (dat0 (E1 m) c).arrAt 12 cfg0.N := by
  unfold W2; exact Function.update_self ..
theorem W2_of_ne (c : Dev nD) (b : Ref sig .tc) (hb : b ≠ main_call0_v3) : W2 m c b = Gen.V1 m c b := by
  unfold W2; exact Function.update_of_ne (StableHlo.devRef_ne_of_ne hb) ..
theorem W3_out (c : Dev nD) : W3 m c main_v0 = (dat1 (E2 m) c).arrAt 8 cfg1.N := by
  unfold W3; exact Function.update_self ..
theorem W3_of_ne (c : Dev nD) (b : Ref sig .tc) (hb : b ≠ main_v0) : W3 m c b = W2 m c b := by
  unfold W3; exact Function.update_of_ne (StableHlo.devRef_ne_of_ne hb) ..

theorem outs_2 (c : Dev nD) : outs m 2 main_call0_v3 c = (dat0 (E1 m) c).arrAt 12 cfg0.N :=
  (W3_of_ne m c main_call0_v3 (by decide)).trans (W2_out m c)
theorem outs_3 (c : Dev nD) : outs m 3 main_v0 c = (dat1 (E2 m) c).arrAt 8 cfg1.N := W3_out m c

theorem V2_eq (c : Dev nD) : Gen.V2 m (outs m) c = W2 m c := by
  unfold Gen.V2 W2; rw [outs_2]
theorem V3_eq (c : Dev nD) : Gen.V3 m (outs m) c = W3 m c := by
  unfold Gen.V3 W3; rw [outs_3, V2_eq]

def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

theorem unscopedRest0_congr (c : Dev nD) (V V' : (b : Ref sig .tc) → Buf (Elt F) ((c : Thread nD τ).loc b))
    (h : ∀ b, b ≠ main_call0_v3 → V' b = V b) :
    (Pipeline.unscopedRest (Ix := Unit) (Name := ℕ) (U := UR sig nD τ) (Lvl := ℕ) spec0 c V' : sProp 𝕄)
      = Pipeline.unscopedRest spec0 c V := by
  unfold Pipeline.unscopedRest
  refine bigSep_congr fun b hb => ?_
  rw [h b (fun e => by subst e; exact (Finset.mem_sdiff.mp hb).2 (Finset.mem_image.mpr ⟨12, Finset.mem_univ _, rfl⟩))]

theorem unscopedRest1_congr (c : Dev nD) (V V' : (b : Ref sig .tc) → Buf (Elt F) ((c : Thread nD τ).loc b))
    (h : ∀ b, b ≠ main_v0 → V' b = V b) :
    (Pipeline.unscopedRest (Ix := Unit) (Name := ℕ) (U := UR sig nD τ) (Lvl := ℕ) spec1 c V' : sProp 𝕄)
      = Pipeline.unscopedRest spec1 c V := by
  unfold Pipeline.unscopedRest
  refine bigSep_congr fun b hb => ?_
  rw [h b (fun e => by subst e; exact (Finset.mem_sdiff.mp hb).2 (Finset.mem_image.mpr ⟨8, Finset.mem_univ _, rfl⟩))]

theorem held_split0 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W]
  exact Pipeline.unscopedBufs_split₀ cfgs 0 winFacts₀0.arr_unscoped c (fun b => W b)

theorem held_split1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W]
  exact Pipeline.unscopedBufs_split₀ cfgs 1 winFacts₀1.arr_unscoped c (fun b => W b)

set_option backward.isDefEq.respectTransparency.types false in

def reg0 : Pipeline.RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit : (StableHlo.held (c : Thread nD τ) (Pipeline.ucRefs τ sig) (Gen.V1 m c) : sProp 𝕄)
        ⊢ iprop((dat0 (E1 m) c).arrays ((dat0 (E1 m) c).arrAt · 0)
          ∗ Pipeline.unscopedRest (Ix := Unit) (Name := ℕ) (U := UR sig nD τ) (Lvl := ℕ) spec0 c (E1 m c)) := by
      rw [held_split0]; exact sep_mono (arrays_in0 (E1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (E1 m) c).arrays ((dat0 (E1 m) c).arrAt · cfg0.N)
          ∗ Pipeline.unscopedRest (Ix := Unit) (Name := ℕ) (U := UR sig nD τ) (Lvl := ℕ) spec0 c (E1 m c))
        ⊢ (StableHlo.held (c : Thread nD τ) (Pipeline.ucRefs τ sig) (W2 m c) : sProp 𝕄) := by
      rw [held_split0, unscopedRest0_congr c (E1 m c) (E2 m c) (fun b hb => W2_of_ne m c b hb)]
      exact sep_mono (arrays_out0 (E1 m) c (E2 m c) (W2_out m c) (fun b hb => W2_of_ne m c b hb)) .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem restWith_mono (c : Dev nD) {X X' : sProp 𝕄} (h : X ⊢ X') : restWith (F := F) c X ⊢ restWith c X' := by
  unfold restWith
  iterate 23 refine sep_mono .rfl ?_
  exact h

theorem PhiS1_last (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = PhiS1 V c cfg1.N (Nat.le_refl _) from rfl,
    PhiS1_pos V c _ _ (by rw [show cfg1.N = 10 from N_1]; decide), PhiA1_eq]
  refine sep_mono (restWith_mono c ?_) .rfl
  iintro H; iexists _; iexact H

set_option backward.isDefEq.respectTransparency.types false in

def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (StableHlo.held (c : Thread nD τ) (Pipeline.ucRefs τ sig) (W2 m c) : sProp 𝕄)
        ⊢ iprop((dat1 (E2 m) c).arrays ((dat1 (E2 m) c).arrAt · 0)
          ∗ Pipeline.unscopedRest (Ix := Unit) (Name := ℕ) (U := UR sig nD τ) (Lvl := ℕ) spec1 c (E2 m c)) := by
      rw [held_split1]; exact sep_mono (arrays_in1 (E2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (PhiS1_last (E2 m) c).trans ?_
    unfold Pipeline.ΦA
    iintro ⟨Hr, Hp⟩
    isplitl [Hp]; · iexact Hp
    isplitr; · iempintro
    iexact Hr
  hexit c := by
    have hjoin : iprop((dat1 (E2 m) c).arrays ((dat1 (E2 m) c).arrAt · cfg1.N)
          ∗ Pipeline.unscopedRest (Ix := Unit) (Name := ℕ) (U := UR sig nD τ) (Lvl := ℕ) spec1 c (E2 m c))
        ⊢ (StableHlo.held (c : Thread nD τ) (Pipeline.ucRefs τ sig) (W3 m c) : sProp 𝕄) := by
      rw [held_split1, unscopedRest1_congr c (E2 m c) (fun b => W3 m c b) (fun b hb => W3_of_ne m c b hb)]
      exact sep_mono (arrays_out1 (E2 m) c (fun b => W3 m c b) (W3_out m c) (fun b hb => W3_of_ne m c b hb)) .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in

theorem run_outs : θ_run defs (onTc (τ := τ) (main (F := F))) ⟨m, fun _ => 0, ρ⟩ (fun r => ∀ c : Dev nD,
      r.2.mem ((c.tc : Thread nD τ).loc main_v0) = outs m 3 main_v0 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  GenV.frame_cond_val m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)

-- Every fair run ends with the result array at the second region's final contents and every argument unchanged.
theorem run_val : θ_run defs (onTc (τ := τ) (main (F := F))) ⟨m, fun _ => 0, ρ⟩ (fun r => ∀ c : Dev nD,
      r.2.mem ((c.tc : Thread nD τ).loc main_v0) = (dat1 (E2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (outs_3 m c), (h c).2⟩) (run_outs m ρ)

-- Every fair run ends with every argument unchanged.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_val m ρ)

end Cert.KernelIdeal.Fr

end
-- ==== Proof.RefTerm.lean ====
import proofs.«111596_g59545426591934_cont_9to1_m_1243_24_alg».proof.ReferenceIdeal

noncomputable section

namespace Cert.ReferenceIdeal.RefTerm

open Idealize.ShloMosaic Cert.ReferenceIdeal
open Cert.ReferenceIdeal.Facts₀ Cert.ReferenceIdeal.Facts

variable {F : FTy → Type} [FloatOps F] [Facts]
  (x : FVec F S10000x128 .f32) (H : FVec F S10000x5000 .f32) (W : FVec F S128x128 .f32) (b g be : FVec F S128 .f32)

def k0 : FVec F S_ .f32 := constant S_ .f32 0x00000000#32
def k1 : FVec F S_ .f32 := constant S_ .f32 0x3F800000#32
def k128 : FVec F S_ .f32 := constant S_ .f32 0x43000000#32

/-- A vector of 128 entries laid as every row of a 10000 × 128 array. -/
def rows (v : FVec F S128 .f32) : FVec F S10000x128 .f32 :=
  broadcastInDim S10000x128 ![0, 1] bcast_S1x128_S10000x128_0_1 (broadcastInDim S1x128 ![1] bcast_S128_S1x128_1 v)
def col (v : FVec F S10000 .f32) : FVec F S10000x1 .f32 := broadcastInDim S10000x1 ![0] bcast_S10000_S10000x1_0 v
def spread (v : FVec F S10000x1 .f32) : FVec F S10000x128 .f32 :=
  broadcastInDim S10000x128 ![0, 1] bcast_S10000x1_S10000x128_0_1 v
def splat1 (c : FVec F S_ .f32) : FVec F S10000x1 .f32 := broadcastInDim S10000x1 ![] bcast_S_S10000x1 c
def rowsum (M : FVec F S10000x128 .f32) : FVec F S10000 .f32 := Host.reduceAdd M k0 reducesTo_S10000x128_S10000_d1 h_S_
def mean (M : FVec F S10000x128 .f32) : FVec F S10000x1 .f32 := Host.divf (col (rowsum M)) (splat1 k128)

def Xt : FVec F S10000x128 .f32 :=
  addf (Host.dotGeneral dot_S10000x128_S128x128_S10000x128_1_0_0_1_n_n none x W) (rows b)
def Dv : FVec F S10000 .f32 := Host.reduceAdd H k0 reducesTo_S10000x5000_S10000_d1 h_S_
def De : FVec F S5000 .f32 := Host.reduceAdd H k0 reducesTo_S10000x5000_S5000_d0 h_S_
/-- One over the square root of the row sums of H where positive, zero elsewhere. -/
def dvs : FVec F S10000 .f32 :=
  select (cmpf .ogt (Dv H) (broadcastInDim S10000 ![] bcast_S_S10000 k0))
    (Host.divf (broadcastInDim S10000 ![] bcast_S_S10000 k1) (Host.sqrt (Dv H))) (broadcastInDim S10000 ![] bcast_S_S10000 k0)
/-- One over the column sums of H where positive, zero elsewhere. -/
def dei : FVec F S5000 .f32 :=
  select (cmpf .ogt (De H) (broadcastInDim S5000 ![] bcast_S_S5000 k0))
    (Host.divf (broadcastInDim S5000 ![] bcast_S_S5000 k1) (De H)) (broadcastInDim S5000 ![] bcast_S_S5000 k0)
def Y1 : FVec F S10000x128 .f32 := mulf (spread (col (dvs H))) (Xt x W b)
def Y2 : FVec F S5000x128 .f32 :=
  Host.dotGeneral dot_S5000x10000_S10000x128_S5000x128_1_0_0_1_n_n none
    (transpose S5000x10000 [1, 0] H transposes_S10000x5000_S5000x10000_1_0) (Y1 x H W b)
def Y3 : FVec F S5000x128 .f32 :=
  mulf (broadcastInDim S5000x128 ![0, 1] bcast_S5000x1_S5000x128_0_1 (broadcastInDim S5000x1 ![0] bcast_S5000_S5000x1_0 (dei H)))
    (Y2 x H W b)
def Y4 : FVec F S10000x128 .f32 := Host.dotGeneral dot_S10000x5000_S5000x128_S10000x128_1_0_0_1_n_n none H (Y3 x H W b)
def Y5 : FVec F S10000x128 .f32 := mulf (spread (col (dvs H))) (Y4 x H W b)
/-- The deviation of each entry from its row's mean. -/
def dev : FVec F S10000x128 .f32 := subf (Y5 x H W b) (spread (mean (Y5 x H W b)))
/-- The variance's divisor: 128 less the correction, which is the integer 0. -/
def den : FVec F S_ .f32 := subf k128 (sitofp .f32 (constantI S_ 32 0#32))
def var : FVec F S10000x1 .f32 :=
  select (broadcastInDim S10000x1 ![] bcast_S_S10000x1 (cmpf .ogt (den (F := F)) k0))
    (Host.divf (col (rowsum (mulf (dev x H W b) (dev x H W b)))) (splat1 den)) (splat1 (constant S_ .f32 0x7FC00000#32))
def refVal : FVec F S10000x128 .f32 :=
  maximumf (addf (mulf (Host.divf (dev x H W b)
      (spread (Host.sqrt (addf (var x H W b) (splat1 (constant S_ .f32 0x3727C5AC#32)))))) (rows g)) (rows be))
    (broadcastInDim S10000x128 ![] bcast_S_S10000x128 k0)

end Cert.ReferenceIdeal.RefTerm

end
-- ==== Proof.RefRun.lean ====
import proofs.«111596_g59545426591934_cont_9to1_m_1243_24_alg».proof.Proof.Gen.ReferenceIdeal
import proofs.«111596_g59545426591934_cont_9to1_m_1243_24_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, each called function's listed at its call over that call's buffers. -/
abbrev ops : List (HloOp τ sig (Elt F)) :=
  [ binary main_arg0 main_arg2 main_v0 (fun l r => Host.dotGeneral dot_S10000x128_S128x128_S10000x128_1_0_0_1_n_n none l r),
    unary main_arg3 main_v1 (broadcastInDim S1x128 ![1] bcast_S128_S1x128_1),
    unary main_v1 main_v2 (broadcastInDim S10000x128 ![0, 1] bcast_S1x128_S10000x128_0_1),
    binary main_v0 main_v2 main_v3 addf,
    nullary main_cst (constant S_ .f32 0x00000000#32),
    binary main_arg1 main_cst main_v4 (fun x v => Host.reduceAdd x v reducesTo_S10000x5000_S10000_d1 h_S_),
    nullary main_cst_0 (constant S_ .f32 0x00000000#32),
    binary main_arg1 main_cst_0 main_v5 (fun x v => Host.reduceAdd x v reducesTo_S10000x5000_S5000_d0 h_S_),
    nullary main_cst_1 (constant S_ .f32 0x00000000#32),
    unary main_cst_1 main_v6 (broadcastInDim S10000 ![] bcast_S_S10000),
    binary main_v4 main_v6 main_v7 (cmpf .ogt),
    unary main_v4 main_v8 Host.sqrt,
    nullary main_cst_2 (constant S_ .f32 0x3F800000#32),
    unary main_cst_2 main_v9 (broadcastInDim S10000 ![] bcast_S_S10000),
    binary main_v9 main_v8 main_v10 Host.divf,
    nullary main_cst_3 (constant S_ .f32 0x00000000#32),
    TRef.unary (.of main_cst_3) main_call0.v0 id,
    TRef.unary main_call0.v0 main_call0.v1 (broadcastInDim S10000 ![] bcast_S_S10000),
    TRef.ternary (.of main_v7) (.of main_v10) main_call0.v1 main_call0.v2 select,
    nullary main_cst_4 (constant S_ .f32 0x00000000#32),
    unary main_cst_4 main_v12 (broadcastInDim S5000 ![] bcast_S_S5000),
    binary main_v5 main_v12 main_v13 (cmpf .ogt),
    nullary main_cst_5 (constant S_ .f32 0x3F800000#32),
    unary main_cst_5 main_v14 (broadcastInDim S5000 ![] bcast_S_S5000),
    binary main_v14 main_v5 main_v15 Host.divf,
    nullary main_cst_6 (constant S_ .f32 0x00000000#32),
    TRef.unary (.of main_cst_6) main_call1.v0 id,
    TRef.unary main_call1.v0 main_call1.v1 (broadcastInDim S5000 ![] bcast_S_S5000),
    TRef.ternary (.of main_v13) (.of main_v15) main_call1.v1 main_call1.v2 select,
    unary main_v11 main_v17 (broadcastInDim S10000x1 ![0] bcast_S10000_S10000x1_0),
    unary main_v17 main_v18 (broadcastInDim S10000x128 ![0, 1] bcast_S10000x1_S10000x128_0_1),
    binary main_v18 main_v3 main_v19 mulf,
    unary main_arg1 main_v20 (transpose S5000x10000 [1, 0] · transposes_S10000x5000_S5000x10000_1_0),
    binary main_v20 main_v19 main_v21 (fun l r => Host.dotGeneral dot_S5000x10000_S10000x128_S5000x128_1_0_0_1_n_n none l r),
    unary main_v16 main_v22 (broadcastInDim S5000x1 ![0] bcast_S5000_S5000x1_0),
    unary main_v22 main_v23 (broadcastInDim S5000x128 ![0, 1] bcast_S5000x1_S5000x128_0_1),
    binary main_v23 main_v21 main_v24 mulf,
    binary main_arg1 main_v24 main_v25 (fun l r => Host.dotGeneral dot_S10000x5000_S5000x128_S10000x128_1_0_0_1_n_n none l r),
    unary main_v11 main_v26 (broadcastInDim S10000x1 ![0] bcast_S10000_S10000x1_0),
    unary main_v26 main_v27 (broadcastInDim S10000x128 ![0, 1] bcast_S10000x1_S10000x128_0_1),
    binary main_v27 main_v25 main_v28 mulf,
    nullary main_cst_7 (constant S_ .f32 0x00000000#32),
    binary main_v28 main_cst_7 main_v29 (fun x v => Host.reduceAdd x v reducesTo_S10000x128_S10000_d1 h_S_),
    unary main_v29 main_v30 (broadcastInDim S10000x1 ![0] bcast_S10000_S10000x1_0),
    nullary main_cst_8 (constant S_ .f32 0x43000000#32),
    unary main_cst_8 main_v31 (broadcastInDim S10000x1 ![] bcast_S_S10000x1),
    binary main_v30 main_v31 main_v32 Host.divf,
    nullary main_c (constantI S_ 32 0#32),
    TRef.nullary main_call2.cst (constant S_ .f32 0x00000000#32),
    TRef.binary (.of main_v28) main_call2.cst main_call2.v0 (fun x v => Host.reduceAdd x v reducesTo_S10000x128_S10000_d1 h_S_),
    TRef.unary main_call2.v0 main_call2.v1 (broadcastInDim S10000x1 ![0] bcast_S10000_S10000x1_0),
    TRef.nullary main_call2.cst_0 (constant S_ .f32 0x43000000#32),
    TRef.unary main_call2.cst_0 main_call2.v2 (broadcastInDim S10000x1 ![] bcast_S_S10000x1),
    TRef.binary main_call2.v1 main_call2.v2 main_call2.v3 Host.divf,
    TRef.unary main_call2.v3 main_call2.v4 (broadcastInDim S10000x128 ![0, 1] bcast_S10000x1_S10000x128_0_1),
    TRef.binary (.of main_v28) main_call2.v4 main_call2.v5 subf,
    TRef.binary main_call2.v5 main_call2.v5 main_call2.v6 mulf,
    TRef.unary (.of main_c) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S10000x128_S10000_d1 h_S_),
    TRef.unary main_call2.v9 main_call2.v10 (broadcastInDim S10000x1 ![0] bcast_S10000_S10000x1_0),
    TRef.unary main_call2.v8 main_call2.v11 (broadcastInDim S10000x1 ![] bcast_S_S10000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S10000x1 ![] bcast_S_S10000x1),
    TRef.ternary main_call2.v13 main_call2.v12 main_call2.call0.v1 main_call2.call0.v2 (fun p a b => select (broadcastInDim S10000x1 ![] bcast_S_S10000x1 p) a b),
    unary main_v32 main_v34 (broadcastInDim S10000x128 ![0, 1] bcast_S10000x1_S10000x128_0_1),
    binary main_v28 main_v34 main_v35 subf,
    nullary main_cst_9 (constant S_ .f32 0x3727C5AC#32),
    unary main_cst_9 main_v36 (broadcastInDim S10000x1 ![] bcast_S_S10000x1),
    binary main_v33 main_v36 main_v37 addf,
    unary main_v37 main_v38 Host.sqrt,
    unary main_v38 main_v39 (broadcastInDim S10000x128 ![0, 1] bcast_S10000x1_S10000x128_0_1),
    binary main_v35 main_v39 main_v40 Host.divf,
    unary main_arg4 main_v41 (broadcastInDim S1x128 ![1] bcast_S128_S1x128_1),
    unary main_v41 main_v42 (broadcastInDim S10000x128 ![0, 1] bcast_S1x128_S10000x128_0_1),
    binary main_v40 main_v42 main_v43 mulf,
    unary main_arg5 main_v44 (broadcastInDim S1x128 ![1] bcast_S128_S1x128_1),
    unary main_v44 main_v45 (broadcastInDim S10000x128 ![0, 1] bcast_S1x128_S10000x128_0_1),
    binary main_v43 main_v45 main_v46 addf,
    TRef.nullary main_call3.cst (constant S_ .f32 0x00000000#32),
    TRef.unary main_call3.cst main_call3.v0 (broadcastInDim S10000x128 ![] bcast_S_S10000x128),
    TRef.binary (.of main_v46) main_call3.v0 main_call3.v1 maximumf ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  repeat' apply And.intro
  all_goals show _ ⊆ tcRefs τ sig; with_reducible first
    | exact unary_bufs_sub .. | exact binary_bufs_sub .. | exact nullary_bufs_sub .. | exact ternary_bufs_sub ..

theorem out_eq (V : Valuation τ sig (Elt F)) :
    after ops V (main_v47 : DevRef τ sig)
      = RefTerm.refVal (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
set_option maxHeartbeats 4000000 in
/-- No operation writes an argument's buffer. -/
theorem args_eq (V : Valuation τ sig (Elt F)) :
    [main_arg0, main_arg1, main_arg2, main_arg3, main_arg4, main_arg5].Forall fun r : Ref sig .tc =>
      after ops V (r : DevRef τ sig) = V (r : DevRef τ sig) := by
  refine ⟨?_, ?_, ?_, ?_, ?_, ?_⟩ <;> (show _ = _; after_results_simp)

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v47)
          = RefTerm.refVal (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v47).trans (out_eq _), (h c main_arg0).trans (args_eq _).1,
      (h c main_arg1).trans (args_eq _).2.1, (h c main_arg2).trans (args_eq _).2.2.1,
      (h c main_arg3).trans (args_eq _).2.2.2.1, (h c main_arg4).trans (args_eq _).2.2.2.2.1,
      (h c main_arg5).trans (args_eq _).2.2.2.2.2⟩)
    (run_seq scopedRefs_eq scopedSems_eq defs main (fun _ => ops) main_eq (fun _ => ops_sub) m ρ)

end Cert.ReferenceIdeal.HandRun

end
-- ==== Proof.Spec.lean ====
import Idealize.ShloMosaic.PureOps.Ideal

noncomputable section

open scoped BigOperators

namespace Cert.Spec

open Idealize.ShloMosaic

def c1 : EReal := Ideal.ofBits .f32 0x3F800000#32

def c128 : EReal := Ideal.ofBits .f32 0x43000000#32

def ceps : EReal := Ideal.ofBits .f32 0x3727C5AC#32

section Inputs

variable (x : Fin 10000 → Fin 128 → EReal) (H : Fin 10000 → Fin 5000 → EReal) (W : Fin 128 → Fin 128 → EReal)
  (b g be : Fin 128 → EReal)

def Xt (n : Fin 10000) (d : Fin 128) : EReal := (∑ j : Fin 128, x n j * W j d) + b d

def Dv (n : Fin 10000) : EReal := ∑ m : Fin 5000, H n m

def De (m : Fin 5000) : EReal := ∑ n : Fin 10000, H n m

def dvsK (n : Fin 10000) : EReal := if 0 < Dv H n then Ideal.rsqrt (Dv H n) else 0

def xaK (n : Fin 10000) (r : Fin 129) : EReal :=
  if h : r.val < 128 then Xt x W b n ⟨r.val, h⟩ * dvsK H n else c1

-- The accumulated transposed product, 129 × 5000: rows 0 to 127 are (Dv^(-1/2) (xW + b))ᵀ H, row 128 the column sums of H.
def ZK (r : Fin 129) (m : Fin 5000) : EReal := ∑ n : Fin 10000, xaK x H W b n r * H n m

def deiK (m : Fin 5000) : EReal :=
  if 0 < ZK x H W b ⟨128, by decide⟩ m then Ideal.div c1 (ZK x H W b ⟨128, by decide⟩ m) else 0

def zsK (d : Fin 128) (m : Fin 5000) : EReal := ZK x H W b ⟨d.val, by omega⟩ m * deiK x H W b m

def rowYn (hrow : Fin 5000 → EReal) (zs : Fin 128 → Fin 5000 → EReal) (g be : Fin 128 → EReal) (d : Fin 128) : EReal :=
  let dv : EReal := ∑ m : Fin 5000, hrow m
  let dvs : EReal := if 0 < dv then Ideal.rsqrt dv else 0
  let y : Fin 128 → EReal := fun d' => (∑ m : Fin 5000, hrow m * zs d' m) * dvs
  let mean : EReal := Ideal.div (∑ d' : Fin 128, y d') c128
  let cen : Fin 128 → EReal := fun d' => y d' - mean
  let var : EReal := Ideal.div (∑ d' : Fin 128, cen d' * cen d') c128
  (cen d * Ideal.rsqrt (var + ceps)) * g d + be d

-- The kernel's result in the two-pass order.
def GK (n : Fin 10000) (d : Fin 128) : EReal := max (rowYn (H n) (zsK x H W b) g be d) 0

def dvsR (n : Fin 10000) : EReal := if 0 < Dv H n then Ideal.div c1 (Ideal.sqrt (Dv H n)) else 0

def deiR (m : Fin 5000) : EReal := if 0 < De H m then Ideal.div c1 (De H m) else 0
def Y1 (n : Fin 10000) (d : Fin 128) : EReal := dvsR H n * Xt x W b n d
def Y2 (m : Fin 5000) (d : Fin 128) : EReal := ∑ n : Fin 10000, H n m * Y1 x H W b n d
def Y3 (m : Fin 5000) (d : Fin 128) : EReal := deiR H m * Y2 x H W b m d
def Y4 (n : Fin 10000) (d : Fin 128) : EReal := ∑ m : Fin 5000, H n m * Y3 x H W b m d
def Y5 (n : Fin 10000) (d : Fin 128) : EReal := dvsR H n * Y4 x H W b n d

def meanR (n : Fin 10000) : EReal := Ideal.div (∑ d : Fin 128, Y5 x H W b n d) c128

def varR (n : Fin 10000) : EReal :=
  Ideal.div (∑ d : Fin 128, (Y5 x H W b n d - meanR x H W b n) * (Y5 x H W b n d - meanR x H W b n)) c128

-- The reference's result in the textbook order.
def GR (n : Fin 10000) (d : Fin 128) : EReal :=
  max (Ideal.div (Y5 x H W b n d - meanR x H W b n) (Ideal.sqrt (varR x H W b n + ceps)) * g d + be d) 0

end Inputs

def dvsRow (hrow : Fin 5000 → EReal) : EReal :=
  if 0 < ∑ m : Fin 5000, hrow m then Ideal.rsqrt (∑ m : Fin 5000, hrow m) else 0

def xaRow (xrow : Fin 128 → EReal) (W : Fin 128 → Fin 128 → EReal) (b : Fin 128 → EReal) (hrow : Fin 5000 → EReal)
    (r : Fin 129) : EReal :=
  if h : r.val < 128 then ((∑ j : Fin 128, xrow j * W j ⟨r.val, h⟩) + b ⟨r.val, h⟩) * dvsRow hrow else c1

theorem dvsK_eq_dvsRow (H : Fin 10000 → Fin 5000 → EReal) (n : Fin 10000) : dvsK H n = dvsRow (H n) := rfl
theorem xaK_eq_xaRow (x : Fin 10000 → Fin 128 → EReal) (H : Fin 10000 → Fin 5000 → EReal) (W : Fin 128 → Fin 128 → EReal)
    (b : Fin 128 → EReal) (n : Fin 10000) (r : Fin 129) : xaK x H W b n r = xaRow (x n) W b (H n) r := rfl

end Cert.Spec

end
-- ==== Proof.RefRead.lean ====
import proofs.«111596_g59545426591934_cont_9to1_m_1243_24_alg».proof.Proof.RefTerm
import proofs.«111596_g59545426591934_cont_9to1_m_1243_24_alg».proof.Proof.Gen.ReferenceIdeal
import proofs.«111596_g59545426591934_cont_9to1_m_1243_24_alg».proof.Proof.Spec
import Idealize.ShloMosaic.Lib.ValueLayout
import Idealize.ShloMosaic.Lib.StackMember
import Idealize.ShloMosaic.Lib.IdealHost

noncomputable section

open scoped BigOperators

namespace Cert.ReferenceIdeal.RefRead

open Idealize.ShloMosaic Idealize.ShloMosaic.ValueIdx Cert.ReferenceIdeal Cert.ReferenceIdeal.RefTerm
open Cert.ReferenceIdeal.Facts₀ Cert.ReferenceIdeal.Facts

/-- Selecting on "greater than" is the `if` on the order of the extended reals. -/
theorem select_ogt (u v a b : EReal) : Scalar.select (Ideal.cmp .ogt u v) a b = if v < u then a else b := by
  unfold Scalar.select Ideal.cmp
  by_cases h : v < u <;> simp [h]

theorem hostSqrt_apply {s : Shape} {φ : FTy} (a : FVec Ideal s φ) (i : s.Idx) : Host.sqrt a i = Ideal.sqrt (a i) := rfl

theorem rows_apply (v : FVec Ideal S128 .f32) (n : Fin 10000) (d : Fin 128) : rows v (ix2 n d) = v (ix1 d) :=
  Eq.trans (broadcastInDim_apply _ _ _ _ (ix2 (0 : Fin 1) d) fun a => match a with | ⟨0, _⟩ => rfl | ⟨1, _⟩ => rfl)
    (broadcastInDim_apply _ _ _ _ _ fun a => match a with | ⟨0, _⟩ => rfl)
theorem col_apply (v : FVec Ideal S10000 .f32) (n : Fin 10000) (z : Fin 1) : col v (ix2 n z) = v (ix1 n) :=
  broadcastInDim_apply _ _ _ _ _ fun a => match a with | ⟨0, _⟩ => rfl
theorem spread_apply (v : FVec Ideal S10000x1 .f32) (n : Fin 10000) (d : Fin 128) : spread v (ix2 n d) = v (ix2 n 0) :=
  broadcastInDim_apply _ _ _ _ _ fun a => match a with | ⟨0, _⟩ => rfl | ⟨1, _⟩ => rfl
/-- A scalar spread over any array reads the scalar: a map out of the empty set of axes is any map at all. -/
theorem splat_apply {α : Type} {T : Shape} (dims : Fin S_.rank → Fin T.rank) (h : S_.BroadcastsInDim T dims) (y : S_.Idx → α)
    (j : T.Idx) : broadcastInDim T dims h y j = y ix0 := by
  unfold broadcastInDim; exact congrArg y (funext fun a => a.elim0)

/-- A sum over one axis from the zero scalar, read at an index, is the sum over that axis's coordinates. -/
theorem reduce_apply {s t : Shape} {a : Fin s.rank} (h' : s.ReducesTo [a] t) (h : s.Reduces [a] t) (M : FVec Ideal s .f32)
    (j : t.Idx) : Host.reduceAdd M k0 h' h_S_ j = ∑ k, M (h.lift j k) := by
  rw [hostReduceAdd_apply, Ideal.hostReduceAdd_single h' h, show k0 (F := Ideal) _ = 0 from Ideal.ofBits_zero_f32, zero_add]

theorem rowsum_apply (M : FVec Ideal S10000x128 .f32) (n : Fin 10000) : rowsum M (ix1 n) = ∑ d : Fin 128, M (ix2 n d) :=
  (reduce_apply _ (by decide) M _).trans (Finset.sum_congr rfl fun _ _ => congrArg M (eq_ix2 _))

theorem mean_apply (M : FVec Ideal S10000x128 .f32) (n : Fin 10000) (z : Fin 1) :
    mean M (ix2 n z) = Ideal.div (∑ d : Fin 128, M (ix2 n d)) Spec.c128 := by
  unfold mean
  rw [hostDivf_apply, col_apply, splat1, splat_apply, rowsum_apply]
  rfl

variable (x : FVec Ideal S10000x128 .f32) (H : FVec Ideal S10000x5000 .f32) (W : FVec Ideal S128x128 .f32)
  (b g be : FVec Ideal S128 .f32)

abbrev xc : Fin 10000 → Fin 128 → EReal := fun n j => x (ix2 n j)
abbrev Hc : Fin 10000 → Fin 5000 → EReal := fun n m => H (ix2 n m)
abbrev Wc : Fin 128 → Fin 128 → EReal := fun j d => W (ix2 j d)
abbrev vc (v : FVec Ideal S128 .f32) : Fin 128 → EReal := fun d => v (ix1 d)

theorem Xt_eq (n : Fin 10000) (d : Fin 128) : Xt x W b (ix2 n d) = Spec.Xt (xc x) (Wc W) (vc b) n d := by
  unfold Xt Spec.Xt
  rw [addf_apply, rows_apply]
  exact congrArg (· + _) (StackMember.dotGeneral_plain_apply none x W n d)

theorem Dv_eq (n : Fin 10000) : Dv H (ix1 n) = Spec.Dv (Hc H) n :=
  (reduce_apply _ (by decide) H _).trans (Finset.sum_congr rfl fun _ _ => congrArg H (eq_ix2 _))

theorem De_eq (m : Fin 5000) : De H (ix1 m) = Spec.De (Hc H) m :=
  (reduce_apply _ (by decide) H _).trans (Finset.sum_congr rfl fun _ _ => congrArg H (eq_ix2 _))

theorem dvs_eq (n : Fin 10000) : dvs H (ix1 n) = Spec.dvsR (Hc H) n := by
  unfold dvs Spec.dvsR Spec.c1 k0 k1
  simp only [select_apply, cmpf_apply, Ideal.cmpf_def, select_ogt, hostDivf_apply, hostSqrt_apply,
    splat_apply, constant_apply, Ideal.ofBits_zero_f32, Dv_eq]

theorem dei_eq (m : Fin 5000) : dei H (ix1 m) = Spec.deiR (Hc H) m := by
  unfold dei Spec.deiR Spec.c1 k0 k1
  simp only [select_apply, cmpf_apply, Ideal.cmpf_def, select_ogt, hostDivf_apply,
    splat_apply, constant_apply, Ideal.ofBits_zero_f32, De_eq]

theorem Y1_eq (n : Fin 10000) (d : Fin 128) : Y1 x H W b (ix2 n d) = Spec.Y1 (xc x) (Hc H) (Wc W) (vc b) n d := by
  unfold Y1 Spec.Y1
  rw [mulf_apply, spread_apply, col_apply, dvs_eq, Xt_eq]

theorem Y2_eq (m : Fin 5000) (d : Fin 128) : Y2 x H W b (ix2 m d) = Spec.Y2 (xc x) (Hc H) (Wc W) (vc b) m d := by
  unfold Y2 Spec.Y2
  refine (StackMember.dotGeneral_plain_apply none _ _ m d).trans (Finset.sum_congr rfl fun k _ => ?_)
  rw [transpose_ix2_apply, Y1_eq]

theorem Y3_eq (m : Fin 5000) (d : Fin 128) : Y3 x H W b (ix2 m d) = Spec.Y3 (xc x) (Hc H) (Wc W) (vc b) m d := by
  unfold Y3 Spec.Y3
  rw [mulf_apply, Y2_eq, ← dei_eq]
  exact congrArg (· * _) (Eq.trans
    (broadcastInDim_apply _ _ _ _ (ix2 m (0 : Fin 1)) fun a => match a with | ⟨0, _⟩ => rfl | ⟨1, _⟩ => rfl)
    (broadcastInDim_apply _ _ _ _ _ fun a => match a with | ⟨0, _⟩ => rfl))

theorem Y4_eq (n : Fin 10000) (d : Fin 128) : Y4 x H W b (ix2 n d) = Spec.Y4 (xc x) (Hc H) (Wc W) (vc b) n d := by
  unfold Y4 Spec.Y4
  refine (StackMember.dotGeneral_plain_apply none _ _ n d).trans (Finset.sum_congr rfl fun k _ => ?_)
  rw [Y3_eq]

theorem Y5_eq (n : Fin 10000) (d : Fin 128) : Y5 x H W b (ix2 n d) = Spec.Y5 (xc x) (Hc H) (Wc W) (vc b) n d := by
  unfold Y5 Spec.Y5
  rw [mulf_apply, spread_apply, col_apply, dvs_eq, Y4_eq]

theorem dev_eq (n : Fin 10000) (d : Fin 128) : dev x H W b (ix2 n d)
    = Spec.Y5 (xc x) (Hc H) (Wc W) (vc b) n d - Spec.meanR (xc x) (Hc H) (Wc W) (vc b) n := by
  unfold dev Spec.meanR
  rw [subf_apply, spread_apply, mean_apply]
  simp only [Y5_eq]

/-- The divisor 128 - 0 is the real 128, which is positive, so the selection keeps the quotient. -/
theorem den_eq : den (F := Ideal) ix0 = Spec.c128 := by
  unfold den k128 Spec.c128
  rw [subf_apply, constant_apply, sitofp_apply, constantI_apply]
  show Ideal.ofBits .f32 0x43000000#32 - (((0#32 : BitVec 32).toInt : ℝ) : EReal) = _
  simp

theorem c128_pos : (0 : EReal) < Spec.c128 := by
  have : Spec.c128 = ((128 : ℝ) : EReal) := by
    unfold Spec.c128
    simp [Ideal.ofBits, Ideal.ieee, -EReal.coe_mul]; norm_num
  rw [this]; exact EReal.coe_pos.mpr (by norm_num)

theorem var_eq (n : Fin 10000) (z : Fin 1) : var x H W b (ix2 n z) = Spec.varR (xc x) (Hc H) (Wc W) (vc b) n := by
  unfold var Spec.varR k0
  simp only [select_apply, splat1, splat_apply, cmpf_apply, Ideal.cmpf_def, select_ogt, den_eq,
    constant_apply, Ideal.ofBits_zero_f32, if_pos c128_pos, hostDivf_apply, col_apply, rowsum_apply, mulf_apply, dev_eq]

theorem refVal_eq (x : FVec Ideal S10000x128 .f32) (H : FVec Ideal S10000x5000 .f32) (W : FVec Ideal S128x128 .f32)
    (b g be : FVec Ideal S128 .f32) (n : Fin 10000) (d : Fin 128) :
    RefTerm.refVal (F := Ideal) x H W b g be (ValueIdx.ix2 n d)
      = Cert.Spec.GR (fun n j => x (ValueIdx.ix2 n j)) (fun n m => H (ValueIdx.ix2 n m)) (fun j d => W (ValueIdx.ix2 j d))
          (fun d => b (ValueIdx.ix1 d)) (fun d => g (ValueIdx.ix1 d)) (fun d => be (ValueIdx.ix1 d)) n d := by
  unfold refVal Spec.GR Spec.ceps k0
  simp only [maximumf_apply, addf_apply, mulf_apply, hostDivf_apply, spread_apply, hostSqrt_apply, rows_apply, splat1,
    splat_apply, constant_apply, Ideal.ofBits_zero_f32, dev_eq, var_eq]

end Cert.ReferenceIdeal.RefRead

end
-- ==== Proof.Algebra.lean ====
import proofs.«111596_g59545426591934_cont_9to1_m_1243_24_alg».proof.Proof.Spec
import Mathlib.Data.EReal.Inv
import Mathlib.Analysis.Real.Sqrt
import Mathlib.Algebra.BigOperators.Group.Finset.Basic
import Mathlib.Algebra.Order.BigOperators.Group.Finset

noncomputable section

open scoped BigOperators

namespace Cert.Spec

open Idealize.ShloMosaic

theorem c1_eq : c1 = 1 := by
  unfold c1; simp [Ideal.ofBits, Ideal.ieee, -EReal.coe_mul]; norm_num

theorem c128_eq : c128 = ((128 : ℝ) : EReal) := by
  unfold c128; simp [Ideal.ofBits, Ideal.ieee, -EReal.coe_mul]; norm_num

theorem ceps_pos : 0 < ceps := by
  unfold ceps; simp [Ideal.ofBits, Ideal.ieee, -EReal.coe_mul]

-- Under a positive argument the reciprocal square root is one over the square root.
theorem mul_rsqrt_eq_div_sqrt (c v : EReal) (hv : 0 < v) :
    c * Ideal.rsqrt v = Ideal.div c (Ideal.sqrt v) := by
  induction v using EReal.rec with
  | bot => exact absurd hv (by simp)
  | top => simp [Ideal.div]
  | coe r =>
    have hr : 0 < r := by exact_mod_cast hv
    have hs : 0 < Real.sqrt r := Real.sqrt_pos.mpr hr
    rw [Ideal.rsqrt_coe, Ideal.sqrt_coe, if_neg (not_lt.mpr hr.le), if_neg hr.ne', if_neg (not_lt.mpr hr.le),
      Ideal.div_coe hs.ne', one_div]

theorem mul_self_nonneg_ereal (a : EReal) : 0 ≤ a * a := by
  induction a using EReal.rec with
  | bot => simp
  | top => simp
  | coe r => exact_mod_cast mul_self_nonneg r

theorem div_c128_nonneg (s : EReal) (hs : 0 ≤ s) : 0 ≤ Ideal.div s c128 := by
  rw [c128_eq, Ideal.div_coe (by norm_num : (128 : ℝ) ≠ 0)]
  exact mul_nonneg hs (by exact_mod_cast (by norm_num : (0 : ℝ) ≤ 1 / 128))

theorem add_ceps_pos (v : EReal) (hv : 0 ≤ v) : 0 < v + ceps :=
  lt_of_lt_of_le ceps_pos (le_add_of_nonneg_left hv)

section Inputs

variable (x : Fin 10000 → Fin 128 → EReal) (H : Fin 10000 → Fin 5000 → EReal) (W : Fin 128 → Fin 128 → EReal)
  (b g be : Fin 128 → EReal)

theorem dvsK_eq_dvsR (n : Fin 10000) : dvsK H n = dvsR H n := by
  unfold dvsK dvsR
  split_ifs with h
  · rw [← mul_rsqrt_eq_div_sqrt c1 _ h, c1_eq, one_mul]
  · rfl

-- Row 128 of the accumulated product, the ones column against H, is the column sum of H.
theorem ZK_last (m : Fin 5000) : ZK x H W b ⟨128, by decide⟩ m = De H m := by
  unfold ZK De
  refine Finset.sum_congr rfl fun n _ => ?_
  rw [xaK, dif_neg (by simp), c1_eq, one_mul]

theorem deiK_eq_deiR (m : Fin 5000) : deiK x H W b m = deiR H m := by
  unfold deiK deiR
  rw [ZK_last]

-- The scaled transposed product is the reference's third stage, by commutativity.
theorem zsK_eq_Y3 (d : Fin 128) (m : Fin 5000) : zsK x H W b d m = Y3 x H W b m d := by
  unfold zsK Y3 Y2 Y1 ZK
  rw [deiK_eq_deiR, mul_comm]
  congr 1
  refine Finset.sum_congr rfl fun n _ => ?_
  rw [xaK, dif_pos d.isLt, dvsK_eq_dvsR, mul_comm (Xt x W b n _), mul_comm _ (H n m)]

theorem y_eq_Y5 (n : Fin 10000) (d : Fin 128) :
    (∑ m : Fin 5000, H n m * zsK x H W b d m) * dvsK H n = Y5 x H W b n d := by
  unfold Y5 Y4
  rw [dvsK_eq_dvsR, mul_comm]
  congr 1
  exact Finset.sum_congr rfl fun m _ => by rw [zsK_eq_Y3]

theorem varR_add_ceps_pos (n : Fin 10000) : 0 < varR x H W b n + ceps :=
  add_ceps_pos _ (div_c128_nonneg _ (Finset.sum_nonneg fun _ _ => mul_self_nonneg_ereal _))

theorem rowYn_eq (n : Fin 10000) (d : Fin 128) :
    rowYn (H n) (zsK x H W b) g be d
      = Ideal.div (Y5 x H W b n d - meanR x H W b n) (Ideal.sqrt (varR x H W b n + ceps)) * g d + be d := by
  have hy : ∀ d' : Fin 128,
      (∑ m : Fin 5000, H n m * zsK x H W b d' m)
        * (if 0 < ∑ m : Fin 5000, H n m then Ideal.rsqrt (∑ m : Fin 5000, H n m) else 0) = Y5 x H W b n d' :=
    fun d' => y_eq_Y5 x H W b n d'
  simp only [rowYn, hy]
  rw [← mul_rsqrt_eq_div_sqrt _ _ (varR_add_ceps_pos x H W b n)]
  rfl

-- The two-pass form and the textbook form agree.
theorem GK_eq_GR : GK x H W b g be = GR x H W b g be := by
  funext n d
  unfold GK GR
  rw [rowYn_eq]

end Inputs

end Cert.Spec

end
-- ==== Proof.Pay0.lean ====
import proofs.«111596_g59545426591934_cont_9to1_m_1243_24_alg».proof.Proof.Gen.KernelIdeal.Skeleton
import proofs.«111596_g59545426591934_cont_9to1_m_1243_24_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay0

open Idealize.ShloMosaic Idealize.ShloMosaic.ValueIdx Cert.KernelIdeal Cert.KernelIdeal.Gen Cert.Spec

variable (x : Vec Ideal S200x128 .f32) (w : Vec Ideal S128x128 .f32) (bb : Vec Ideal S1x128 .f32) (h : Vec Ideal S200x5000 .f32)
  (k : Fin 200)

-- A trailing unit axis moves no entry: position `(i, u)` of the `[a, 1]` array is position `i` of the `[a]` one.
theorem shapeCast_a_a1_apply {α : Type} {a : ℕ} (v : (⟨1, ![a]⟩ : Shape).Idx → α)
    (hs : (⟨1, ![a]⟩ : Shape).ShapeCasts ⟨2, ![a, 1]⟩) (i : Fin a) (u : Fin 1) :
    shapeCast ⟨2, ![a, 1]⟩ v hs (ix2 i u) = v (ix1 i) :=
  shapeCast_apply v hs _ _ (by
    rw [Shape.rowMajor_val_two, Shape.rowMajor_val_one]
    show i.val = i.val * 1 + u.val
    omega)

-- A column repeated along the lanes shows, in every lane of row `p`, its own entry `p`.
theorem broadcastTo_a1_ab_apply {α : Type} {a b : ℕ} (v : (⟨2, ![a, 1]⟩ : Shape).Idx → α)
    (hb : (⟨2, ![a, 1]⟩ : Shape).Broadcasts ⟨2, ![a, b]⟩) (p : Fin a) (c : Fin b) :
    broadcastTo ⟨2, ![a, b]⟩ v hb (ix2 p c) = v (ix2 p (0 : Fin 1)) := by
  refine broadcastTo_apply v hb (ix2 p c) (ix2 p (0 : Fin 1)) fun ax => ?_
  match ax with
  | ⟨0, _⟩ =>
    show p.val = if a = 1 then 0 else p.val
    split
    · have := p.isLt; omega
    · rfl
  | ⟨1, _⟩ => rfl

-- Entry `(k, d)` of `x W` is row `k` of `x` against column `d` of `W`.
theorem xw_apply (d : Fin 128) :
    matmul (F := Ideal) (φ₁ := .f32) (φ₂ := .f32) dot_S200x128_S128x128_S200x128_1_0_0_1_n_n none x w (constant S200x128 .f32 0x00000000#32) (ix2 k d)
      = ∑ j : Fin 128, x (ix2 k j) * w (ix2 j d) := by
  simp only [matmul]
  rw [Ideal.matmul_constant_zero_apply, ← Equiv.sum_comp (contrEquiv1 dot_S200x128_S128x128_S200x128_1_0_0_1_n_n 128 rfl rfl).symm]
  exact Finset.sum_congr rfl fun j _ => congrArg₂ (· * ·) (congrArg x (Shape.idx_ext₂ rfl rfl)) (congrArg w (Shape.idx_ext₂ rfl rfl))

theorem xt_apply (d : Fin 128) :
    k0_pay10 (F := Ideal) x w bb (ix2 k d) = (∑ j : Fin 128, x (ix2 k j) * w (ix2 j d)) + bb (ix2 (0 : Fin 1) d) := by
  unfold k0_pay10
  refine (addf_apply _ _ _).trans (congrArg₂ (· + ·) (xw_apply x w k d) ?_)
  refine (broadcastTo_1b_ab_apply _ broadcasts_S1x128_S200x128 k d).trans ?_
  rw [shapeCast_self]

theorem dv_apply (u : Fin 1) : k0_pay11 (F := Ideal) h (ix2 k u) = ∑ m : Fin 5000, h (ix2 k m) := by
  unfold k0_pay11
  refine (shapeCast_a_a1_apply _ shapeCasts_S200_S200x1 k u).trans ?_
  refine (Ideal.multiReduction_add_single (φ := .f32) h 0x00000000#32 reduces_S200x5000_S200 (.inl rfl) rfl (ix1 k)).trans ?_
  exact Finset.sum_congr rfl fun m _ => congrArg h (Shape.idx_ext₂ rfl rfl)

-- The guarded reciprocal square root of row `k`'s sum over `H` is the specification's `dvsRow`.
theorem dvs_apply (u : Fin 1) :
    select (k0_pay12 (F := Ideal) h) (k0_pay13 h) (broadcast S200x1 (Scalar.ofBits (F := Ideal) .f32 0x00000000#32)) (ix2 k u)
      = dvsRow (fun m => h (ix2 k m)) := by
  unfold dvsRow k0_pay12 k0_pay13
  refine (select_apply _ _ _ _).trans ?_
  rw [cmpf_apply, broadcast_apply]
  show Scalar.select (Ideal.cmp .ogt (k0_pay11 h (ix2 k u)) (Ideal.ofBits .f32 0x00000000#32)) (Ideal.rsqrt (k0_pay11 h (ix2 k u)))
      (Ideal.ofBits .f32 0x00000000#32) = _
  rw [dv_apply, Ideal.ofBits_zero_f32]
  by_cases hpos : 0 < ∑ m : Fin 5000, h (ix2 k m)
  · rw [if_pos hpos, show Ideal.cmp .ogt (∑ m : Fin 5000, h (ix2 k m)) 0 = 1#1 by unfold Ideal.cmp; simp [hpos], select_one]
  · rw [if_neg hpos, show Ideal.cmp .ogt (∑ m : Fin 5000, h (ix2 k m)) 0 = 0#1 by unfold Ideal.cmp; simp [hpos], select_zero]

theorem xs_apply (d : Fin 128) :
    k0_pay24 (F := Ideal) x w bb h (ix2 k d)
      = ((∑ j : Fin 128, x (ix2 k j) * w (ix2 j d)) + bb (ix2 (0 : Fin 1) d)) * dvsRow (fun m => h (ix2 k m)) := by
  unfold k0_pay24
  refine (mulf_apply _ _ _).trans (congrArg₂ (· * ·) (xt_apply x w bb k d) ?_)
  exact (broadcastTo_a1_ab_apply _ broadcasts_S200x1_S200x128 k d).trans (dvs_apply h k 0)

-- Columns below 128 are the scaled transform and column 128 is the constant one, which is how `xaRow` is defined.
theorem xa_apply (r : Fin 129) :
    k0_pay25 (k0_pay24 (F := Ideal) x w bb h) (ix2 k r)
      = xaRow (fun j => x (ix2 k j)) (fun j d => w (ix2 j d)) (fun d => bb (ix2 (0 : Fin 1) d)) (fun m => h (ix2 k m)) r := by
  unfold xaRow k0_pay25
  by_cases hr : r.val < 128
  · rw [dif_pos hr]
    exact (concatenate_pair_apply_left (1 : Fin S200x129.rank) _ _ concatenates_S200x128_S200x1_S200x129_d1 (ix2 k r) rfl
      (ix2 k (⟨r.val, hr⟩ : Fin 128)) (fun b => by fin_cases b <;> rfl)).trans (xs_apply x w bb h k ⟨r.val, hr⟩)
  · rw [dif_neg hr]
    exact concatenate_pair_apply_right (1 : Fin S200x129.rank) _ _ concatenates_S200x128_S200x1_S200x129_d1 (ix2 k r) rfl rfl
      (ix2 k (0 : Fin 1)) (fun b hb => by
        match b, hb with
        | ⟨0, _⟩, _ => rfl
        | ⟨1, _⟩, hb => exact absurd rfl hb) (by
        show 0 + 128 = r.val
        have := r.isLt
        omega)

-- Both operands are contracted over their 200 rows, so entry `(r, q)` gains `∑ k, xa (k, r) * hc (k, q)`, at any lane width `n`.
theorem upd_apply {n : ℕ} (D : DotDims S200x129 ⟨2, ![200, n]⟩ ⟨2, ![129, n]⟩) (hlc : D.lhsContracting = [0])
    (hrc : D.rhsContracting = [0]) (hln : D.lhsNonContracting = [1]) (hrn : D.rhsNonContracting = [1]) (hlb : D.lhsBatch = [])
    (hrb : D.rhsBatch = []) (hc : Vec Ideal ⟨2, ![200, n]⟩ .f32) (old : Vec Ideal ⟨2, ![129, n]⟩ .f32)
    (hs : (⟨2, ![129, n]⟩ : Shape).ShapeCasts ⟨2, ![129, n]⟩) (r : Fin 129) (q : Fin n) :
    addf (shapeCast ⟨2, ![129, n]⟩ old hs)
        (matmul (φ₂ := .f32) D none (k0_pay25 (k0_pay24 (F := Ideal) x w bb h)) hc (constant ⟨2, ![129, n]⟩ .f32 0x00000000#32)) (ix2 r q)
      = old (ix2 r q) + ∑ k : Fin 200, xaRow (fun j => x (ix2 k j)) (fun j d => w (ix2 j d)) (fun d => bb (ix2 (0 : Fin 1) d))
          (fun m => h (ix2 k m)) r * hc (ix2 k q) := by
  obtain ⟨lc, rc, ln, rn, lb, rb, wf⟩ := D
  dsimp only at hlc hrc hln hrn hlb hrb
  subst hlc hrc hln hrn hlb hrb
  rw [addf_apply, shapeCast_self]
  refine congrArg (old (ix2 r q) + ·) ?_
  simp only [matmul]
  rw [Ideal.matmul_constant_zero_apply, ← Equiv.sum_comp (contrEquiv1 _ 200 rfl rfl).symm]
  exact Finset.sum_congr rfl fun k _ => congrArg₂ (· * ·)
    ((congrArg _ (by exact Shape.idx_ext₂ rfl rfl)).trans (xa_apply x w bb h k r)) (congrArg hc (Shape.idx_ext₂ rfl rfl))

end Cert.KernelIdeal.Pay0

end
-- ==== Proof.ValDefs.lean ====
import proofs.«111596_g59545426591934_cont_9to1_m_1243_24_alg».proof.Proof.Gen.KernelIdeal
import proofs.«111596_g59545426591934_cont_9to1_m_1243_24_alg».proof.Proof.Spec
import Idealize.ShloMosaic.Lib.ValueIdx

noncomputable section

open scoped BigOperators

namespace Cert.KernelIdeal.Val

open Idealize.ShloMosaic Idealize.ShloMosaic.ValueIdx Cert.KernelIdeal

-- One 200-row block's contribution to the accumulator's entry (r, m).
def contrib (x : Vec Ideal S200x128 .f32) (w : Vec Ideal S128x128 .f32) (b : Vec Ideal S1x128 .f32)
    (h : Vec Ideal S200x5000 .f32) (r : Fin 129) (m : Fin 5000) : EReal :=
  ∑ k : Fin 200, Cert.Spec.xaRow (fun j => x (ix2 k j)) (fun j d => w (ix2 j d)) (fun d => b (ix2 (0 : Fin 1) d))
    (fun m' => h (ix2 k m')) r * h (ix2 k m)

end Cert.KernelIdeal.Val

end
-- ==== Proof.Val0a.lean ====
import proofs.«111596_g59545426591934_cont_9to1_m_1243_24_alg».proof.Proof.KI.Dat0
import proofs.«111596_g59545426591934_cont_9to1_m_1243_24_alg».proof.Proof.Pay0
import proofs.«111596_g59545426591934_cont_9to1_m_1243_24_alg».proof.Proof.ValDefs
import Idealize.ShloMosaic.Lib.Pipeline.Value

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Fr

abbrev sh (o : ℕ) {n : ℕ} (hon : o + n ≤ 5000) (q : Fin n) : Fin 5000 := ⟨o + q.val, by have := q.isLt; omega⟩

abbrev AccPiece : Type := View.Piece (Elt Ideal) S129x5000 .f32

theorem hz2 : (![0, 0] : Fin 2 → Nat) = fun _ => 0 := funext fun a => by fin_cases a <;> rfl

-- In a window of whole rows that begins at lane `o`, position `(r, q)` is the array's `(r, o + q)`.
theorem idx_chunk {R C : ℕ} (o n : ℕ) (hon : o + n ≤ C) (inb : ∀ a, (![0, o] : Fin 2 → ℕ) a + (![R, n] : Fin 2 → ℕ) a ≤ (⟨2, ![R, C]⟩ : Shape).size a)
    (r : Fin R) (q : Fin n) :
    (Rect.unit (s := ⟨2, ![R, C]⟩) ![0, o] ![R, n] inb).idx (ix2 r q) = ix2 r (⟨o + q.val, by have := q.isLt; omega⟩ : Fin C) :=
  Shape.idx_ext₂ (by show 0 + 1 * r.val = r.val; omega) (by show o + 1 * q.val = o + q.val; omega)

section Lane

variable {o n : ℕ} {inb : ∀ a, (![0, o] : Fin 2 → ℕ) a + (![129, n] : Fin 2 → ℕ) a ≤ S129x5000.size a}
  {P : Vec Ideal ⟨2, ![129, n]⟩ .f32} {L : List AccPiece} {r : Fin 129}

-- Inside the newest chunk's lanes the contents are that chunk's.
theorem hit {hon : o + n ≤ 5000} {q : Fin n} :
    View.canon ((⟨Rect.unit (s := S129x5000) ![0, o] ![129, n] inb, P⟩ : AccPiece) :: L) (ix2 r (sh o hon q)) = P (ix2 r q) :=
  idx_chunk o n hon inb r q ▸ View.canon_cons_emb (Rect.unit (s := S129x5000) ![0, o] ![129, n] inb) P L (ix2 r q)

-- Lanes `[o', o' + n')` disjoint from the newest chunk's `[o, o + n)` still show the older stores.
theorem miss {o' n' : ℕ} {hon' : o' + n' ≤ 5000} {q : Fin n'} (hm : o' + n' ≤ o ∨ o + n ≤ o' := by decide) :
    View.canon ((⟨Rect.unit (s := S129x5000) ![0, o] ![129, n] inb, P⟩ : AccPiece) :: L) (ix2 r (sh o' hon' q))
      = View.canon L (ix2 r (sh o' hon' q)) := by
  refine View.canon_cons_of_not_mem _ L ?_
  show _ ∉ (Rect.unit (s := S129x5000) ![0, o] ![129, n] inb).set
  rw [Rect.mem_set_unit]
  intro hall
  have := hall 1
  have hq := q.isLt
  change o ≤ o' + q.val ∧ o' + q.val < o + n at this
  omega

-- Reading lanes `[o, o + n)` back after the stores `L` gives their combined contents there.
theorem rc (v : View sig .tc .vmem S129x5000 .f32) {hon : o + n ≤ 5000} {q : Fin n} :
    v.readCov L (Rect.unit (s := S129x5000) ![0, o] ![129, n] inb).toLoadRect (ix2 r q) = View.canon L (ix2 r (sh o hon q)) :=
  (congrFun (View.readCov_eq_canon' v L (Rect.unit (s := S129x5000) ![0, o] ![129, n] inb).toLoadRect) (ix2 r q)).trans
    (congrArg (View.canon L) (idx_chunk o n hon inb r q))

end Lane

-- 5000 = 1280 + 1280 + 1280 + 1160: the four chunks cover the lanes.
theorem lane_cases (m : Fin 5000) :
    (∃ q : Fin 1280, m = sh 0 (by norm_num) q) ∨ (∃ q : Fin 1280, m = sh 1280 (by norm_num) q)
      ∨ (∃ q : Fin 1280, m = sh 2560 (by norm_num) q) ∨ (∃ q : Fin 1160, m = sh 3840 (by norm_num) q) := by
  have hm := m.isLt
  by_cases h1 : m.val < 1280
  · exact .inl ⟨⟨m.val, h1⟩, Fin.ext (Nat.zero_add _).symm⟩
  by_cases h2 : m.val < 2560
  · exact .inr (.inl ⟨⟨m.val - 1280, by omega⟩, Fin.ext (by show m.val = 1280 + (m.val - 1280); omega)⟩)
  by_cases h3 : m.val < 3840
  · exact .inr (.inr (.inl ⟨⟨m.val - 2560, by omega⟩, Fin.ext (by show m.val = 2560 + (m.val - 2560); omega)⟩))
  · exact .inr (.inr (.inr ⟨⟨m.val - 3840, by omega⟩, Fin.ext (by show m.val = 3840 + (m.val - 3840); omega)⟩))

-- Reading all of a buffer gives back its contents.
theorem ld_whole {S : Shape} {e : EltTy} (a : Memref sig .tc .vmem S e) (ha : a.IsWhole) (X : Vec Ideal S e)
    {off : Fin S.rank → ℕ} (hz : off = fun _ => 0) (inb : ∀ a, off a + S.size a ≤ S.size a) :
    View.readAt (Elt Ideal) a.view (Rect.unit off S.size inb).toLoadRect (ha.unread X) = X := by
  rw [View.readAt_eq_ld, ha.read_unread, View.ld_unit_zero hz]

-- Reading lanes `[o, o + n)` of a buffer gives its contents shifted by `o`.
theorem ld_chunk {R : ℕ} (a : Memref sig .tc .vmem (⟨2, ![R, 5000]⟩ : Shape) .f32) (ha : a.IsWhole)
    (X : Vec Ideal (⟨2, ![R, 5000]⟩ : Shape) .f32) (o n : ℕ) (hon : o + n ≤ 5000)
    (inb : ∀ a, (![0, o] : Fin 2 → ℕ) a + (![R, n] : Fin 2 → ℕ) a ≤ (⟨2, ![R, 5000]⟩ : Shape).size a) (k : Fin R) (q : Fin n) :
    View.readAt (Elt Ideal) a.view (Rect.unit (s := ⟨2, ![R, 5000]⟩) ![0, o] ![R, n] inb).toLoadRect (ha.unread X) (ix2 k q)
      = X (ix2 k (sh o hon q)) := by
  rw [View.readAt_eq_ld, ha.read_unread]
  exact congrArg X (idx_chunk o n hon inb k q)

abbrev R0 : Rect S129x5000 := Rect.unit ![0, 0] S129x1280.size inb_S129x5000_S129x1280_0_0
abbrev R1 : Rect S129x5000 := Rect.unit ![0, 1280] S129x1280.size inb_S129x5000_S129x1280_0_1280
abbrev R2 : Rect S129x5000 := Rect.unit ![0, 2560] S129x1280.size inb_S129x5000_S129x1280_0_2560
abbrev R3 : Rect S129x5000 := Rect.unit ![0, 3840] S129x1160.size inb_S129x5000_S129x1160_0_3840

section Block

variable {ax : Memref sig .tc .vmem S200x128 .f32} {hax : ax.IsWhole} {ah : Memref sig .tc .vmem S200x5000 .f32} {hah : ah.IsWhole}
  {aw : Memref sig .tc .vmem S128x128 .f32} {haw : aw.IsWhole} {ab : Memref sig .tc .vmem S1x128 .f32} {hab : ab.IsWhole}
  (x : Vec Ideal S200x128 .f32) (h : Vec Ideal S200x5000 .f32) (w : Vec Ideal S128x128 .f32) (b : Vec Ideal S1x128 .f32)

-- What a row block puts at lanes `[o, o + n)`: the old chunk plus `xaᵀ · H[:, o .. o + n)`, every operand read from its buffer.
def pay (hax : ax.IsWhole) (hah : ah.IsWhole) (haw : aw.IsWhole) (hab : ab.IsWhole) {n : ℕ}
    (D : DotDims S200x129 ⟨2, ![200, n]⟩ ⟨2, ![129, n]⟩) (o : ℕ)
    (inb : ∀ a, (![0, o] : Fin 2 → ℕ) a + (![200, n] : Fin 2 → ℕ) a ≤ S200x5000.size a) (old : Vec Ideal ⟨2, ![129, n]⟩ .f32) :
    FVec Ideal ⟨2, ![129, n]⟩ .f32 :=
  addf (shapeCast ⟨2, ![129, n]⟩ old rfl)
    (matmul (φ₂ := .f32) D none
      (k0_pay25 (k0_pay24 (F := Ideal)
        (View.readAt (Elt Ideal) ax.view (Rect.unit ![0, 0] S200x128.size inb_S200x128_S200x128_0_0).toLoadRect (hax.unread x))
        (View.readAt (Elt Ideal) aw.view (Rect.unit ![0, 0] S128x128.size inb_S128x128_S128x128_0_0).toLoadRect (haw.unread w))
        (View.readAt (Elt Ideal) ab.view (Rect.unit ![0, 0] S1x128.size inb_S1x128_S1x128_0_0).toLoadRect (hab.unread b))
        (View.readAt (Elt Ideal) ah.view (Rect.unit ![0, 0] S200x5000.size inb_S200x5000_S200x5000_0_0).toLoadRect (hah.unread h))))
      (View.readAt (Elt Ideal) ah.view (Rect.unit (s := S200x5000) ![0, o] ![200, n] inb).toLoadRect (hah.unread h))
      (constant ⟨2, ![129, n]⟩ .f32 0x00000000#32))

theorem pay_apply {n : ℕ} (D : DotDims S200x129 ⟨2, ![200, n]⟩ ⟨2, ![129, n]⟩) (o : ℕ) (hon : o + n ≤ 5000) (inb)
    (old : Vec Ideal ⟨2, ![129, n]⟩ .f32) (r : Fin 129) (q : Fin n) (hlc : D.lhsContracting = [0] := by rfl)
    (hrc : D.rhsContracting = [0] := by rfl) (hln : D.lhsNonContracting = [1] := by rfl) (hrn : D.rhsNonContracting = [1] := by rfl)
    (hlb : D.lhsBatch = [] := by rfl) (hrb : D.rhsBatch = [] := by rfl) :
    pay x h w b hax hah haw hab D o inb old (ix2 r q) = old (ix2 r q) + contrib x w b h r (sh o hon q) := by
  unfold pay
  rw [ld_whole ax hax x hz2, ld_whole aw haw w hz2, ld_whole ab hab b hz2, ld_whole ah hah h hz2]
  exact (Pay0.upd_apply x w b h D hlc hrc hln hrn hlb hrb _ old rfl r q).trans
    (congrArg (old (ix2 r q) + ·) (Finset.sum_congr rfl fun k _ => congrArg (_ * ·) (ld_chunk ah hah h o n hon inb k q)))

variable {L : List AccPiece} (base : Vec Ideal S129x5000 .f32) {o0 o1 o2 : Vec Ideal S129x1280 .f32} {o3 : Vec Ideal S129x1160 .f32}
  {P0 P1 P2 : Vec Ideal S129x1280 .f32} {P3 : Vec Ideal S129x1160 .f32} {v : View sig .tc .vmem S129x5000 .f32} {r : Fin 129} {m : Fin 5000}

-- If the four old chunks are the lanes of `base`, the four new chunks together are `base` plus the block's contribution.
theorem blockGen (ho0 : ∀ r q, o0 (ix2 r q) = base (ix2 r (sh 0 (by norm_num) q)))
    (ho1 : ∀ r q, o1 (ix2 r q) = base (ix2 r (sh 1280 (by norm_num) q)))
    (ho2 : ∀ r q, o2 (ix2 r q) = base (ix2 r (sh 2560 (by norm_num) q)))
    (ho3 : ∀ r q, o3 (ix2 r q) = base (ix2 r (sh 3840 (by norm_num) q)))
    (e0 : P0 = pay x h w b hax hah haw hab dot_S200x129_S200x1280_S129x1280_0_0_1_1_n_n 0 inb_S200x5000_S200x1280_0_0 o0 := by rfl)
    (e1 : P1 = pay x h w b hax hah haw hab dot_S200x129_S200x1280_S129x1280_0_0_1_1_n_n 1280 inb_S200x5000_S200x1280_0_1280 o1 := by rfl)
    (e2 : P2 = pay x h w b hax hah haw hab dot_S200x129_S200x1280_S129x1280_0_0_1_1_n_n 2560 inb_S200x5000_S200x1280_0_2560 o2 := by rfl)
    (e3 : P3 = pay x h w b hax hah haw hab dot_S200x129_S200x1160_S129x1160_0_0_1_1_n_n 3840 inb_S200x5000_S200x1160_0_3840 o3 := by rfl) :
    View.canon ((⟨R3, P3⟩ : AccPiece) :: (⟨R2, P2⟩ : AccPiece) :: (⟨R1, P1⟩ : AccPiece) :: (⟨R0, P0⟩ : AccPiece) :: L) (ix2 r m)
      = base (ix2 r m) + contrib x w b h r m := by
  subst e0 e1 e2 e3
  rcases lane_cases m with ⟨q, rfl⟩ | ⟨q, rfl⟩ | ⟨q, rfl⟩ | ⟨q, rfl⟩
  · exact ((miss).trans <| (miss).trans <| (miss).trans hit).trans ((pay_apply x h w b _ _ _ _ _ r q).trans (congrArg (· + _) (ho0 r q)))
  · exact ((miss).trans <| (miss).trans hit).trans ((pay_apply x h w b _ _ _ _ _ r q).trans (congrArg (· + _) (ho1 r q)))
  · exact ((miss).trans hit).trans ((pay_apply x h w b _ _ _ _ _ r q).trans (congrArg (· + _) (ho2 r q)))
  · exact hit.trans ((pay_apply x h w b _ _ _ _ _ r q).trans (congrArg (· + _) (ho3 r q)))

-- Each old chunk is read back from the accumulator; the block's own earlier chunks lie on other lanes, so `base` is what `L` left.
theorem block (rest : EReal) (hrest : View.canon L (ix2 r m) = rest)
    (e0 : P0 = pay x h w b hax hah haw hab dot_S200x129_S200x1280_S129x1280_0_0_1_1_n_n 0 inb_S200x5000_S200x1280_0_0 (v.readCov L R0.toLoadRect) := by rfl)
    (e1 : P1 = pay x h w b hax hah haw hab dot_S200x129_S200x1280_S129x1280_0_0_1_1_n_n 1280 inb_S200x5000_S200x1280_0_1280
      (v.readCov ((⟨R0, P0⟩ : AccPiece) :: L) R1.toLoadRect) := by rfl)
    (e2 : P2 = pay x h w b hax hah haw hab dot_S200x129_S200x1280_S129x1280_0_0_1_1_n_n 2560 inb_S200x5000_S200x1280_0_2560
      (v.readCov ((⟨R1, P1⟩ : AccPiece) :: (⟨R0, P0⟩ : AccPiece) :: L) R2.toLoadRect) := by rfl)
    (e3 : P3 = pay x h w b hax hah haw hab dot_S200x129_S200x1160_S129x1160_0_0_1_1_n_n 3840 inb_S200x5000_S200x1160_0_3840
      (v.readCov ((⟨R2, P2⟩ : AccPiece) :: (⟨R1, P1⟩ : AccPiece) :: (⟨R0, P0⟩ : AccPiece) :: L) R3.toLoadRect) := by rfl) :
    View.canon ((⟨R3, P3⟩ : AccPiece) :: (⟨R2, P2⟩ : AccPiece) :: (⟨R1, P1⟩ : AccPiece) :: (⟨R0, P0⟩ : AccPiece) :: L) (ix2 r m)
      = rest + contrib x w b h r m :=
  (blockGen x h w b (View.canon L) (fun _ _ => rc v) (fun _ _ => (rc v).trans miss) (fun _ _ => (rc v).trans <| (miss).trans miss)
    (fun _ _ => (rc v).trans <| (miss).trans <| (miss).trans miss) e0 e1 e2 e3).trans (congrArg (· + contrib x w b h r m) hrest)

end Block

variable (c : Dev nD) (i : grid0.Coords) (arg1 : Memref sig .tc .vmem S200x128 .f32) (harg1 : arg1.IsWhole) (arg2 : Memref sig .tc .vmem S200x128 .f32) (harg2 : arg2.IsWhole) (arg3 : Memref sig .tc .vmem S200x128 .f32) (harg3 : arg3.IsWhole) (arg4 : Memref sig .tc .vmem S200x128 .f32) (harg4 : arg4.IsWhole) (arg5 : Memref sig .tc .vmem S200x128 .f32) (harg5 : arg5.IsWhole) (arg6 : Memref sig .tc .vmem S200x5000 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S129x5000 .f32) (harg13 : arg13.IsWhole)

theorem out0_B_apply (hc0 : ¬cond0 i) (x0 x1 x2 x3 x4 : Vec Ideal S200x128 .f32) (h0 h1 h2 h3 h4 : Vec Ideal S200x5000 .f32)
    (w : Vec Ideal S128x128 .f32) (b : Vec Ideal S1x128 .f32) (xo : Vec Ideal S129x5000 .f32) (r : Fin 129) (m : Fin 5000) :
    Fr.out0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b xo (ix2 r m)
      = ((((xo (ix2 r m) + contrib x0 w b h0 r m) + contrib x1 w b h1 r m) + contrib x2 w b h2 r m) + contrib x3 w b h3 r m) + contrib x4 w b h4 r m := by
  unfold Fr.out0_B
  rw [View.read_writes_junk_eq_canon]
  unfold Fr.kernelRun0_B
  dsimp only
  refine block x4 h4 w b _ ?_
  refine block x3 h3 w b _ ?_
  refine block x2 h2 w b _ ?_
  refine block x1 h1 w b _ ?_
  exact blockGen x0 h0 w b xo (ld_chunk arg13 harg13 xo _ _ _ _) (ld_chunk arg13 harg13 xo _ _ _ _) (ld_chunk arg13 harg13 xo _ _ _ _)
    (ld_chunk arg13 harg13 xo _ _ _ _)

theorem out0_A_apply (hc0 : cond0 i) (x0 x1 x2 x3 x4 : Vec Ideal S200x128 .f32) (h0 h1 h2 h3 h4 : Vec Ideal S200x5000 .f32)
    (w : Vec Ideal S128x128 .f32) (b : Vec Ideal S1x128 .f32) (r : Fin 129) (m : Fin 5000) :
    Fr.out0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 h0 h1 h2 h3 h4 w b (ix2 r m)
      = (((((0 : EReal) + contrib x0 w b h0 r m) + contrib x1 w b h1 r m) + contrib x2 w b h2 r m) + contrib x3 w b h3 r m) + contrib x4 w b h4 r m := by
  unfold Fr.out0_A
  rw [View.read_writes_junk_eq_canon]
  unfold Fr.kernelRun0_A
  dsimp only
  refine block x4 h4 w b _ ?_
  refine block x3 h3 w b _ ?_
  refine block x2 h2 w b _ ?_
  refine block x1 h1 w b _ ?_
  refine block x0 h0 w b _ ?_
  exact (congrFun (View.canon_unit_zero (S := S129x5000) hz2 _ _) (ix2 r m)).trans Ideal.ofBits_zero_f32

end Cert.KernelIdeal.Val

end
-- ==== Proof.Val0b.lean ====
import proofs.«111596_g59545426591934_cont_9to1_m_1243_24_alg».proof.Proof.Val0a
import proofs.«111596_g59545426591934_cont_9to1_m_1243_24_alg».proof.Proof.KI.Dat0
import proofs.«111596_g59545426591934_cont_9to1_m_1243_24_alg».proof.Proof.ValDefs
import proofs.«111596_g59545426591934_cont_9to1_m_1243_24_alg».proof.Proof.Spec
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx
open Cert.KernelIdeal Cert.KernelIdeal.Gen Cert.KernelIdeal.Fr

variable (V : (c : Dev nD) → (b : Ref sig .tc) → Buf (Elt Ideal) ((c : Thread nD τ).loc b)) (c : Dev nD) (r : Fin 129) (m : Fin 5000)

namespace R0

def xF (c : Dev nD) : Fin 10000 → Fin 128 → EReal := fun n j => (V c main_arg0 : Vec Ideal S10000x128 .f32) (ix2 n j)
def HF (c : Dev nD) : Fin 10000 → Fin 5000 → EReal := fun n m => (V c main_arg1 : Vec Ideal S10000x5000 .f32) (ix2 n m)
def WF (c : Dev nD) : Fin 128 → Fin 128 → EReal := fun j d => (V c main_arg2 : Vec Ideal S128x128 .f32) (ix2 j d)
def bF (c : Dev nD) : Fin 128 → EReal := fun d => (V c main_call0_v0 : Vec Ideal S1x128 .f32) (ix2 (0 : Fin 1) d)

/-- Block w at grid point t starts at row 1000 t + 200 (w mod 5) when w < 10 and at row 0 otherwise, always at column 0. -/
theorem off0 : ∀ (w : Fin cfg0.W) (t : Fin cfg0.N) (a : Fin (cfg0.win w).shape.rank), (cfg0.win w).index t a * (cfg0.win w).size a
    = if a.val = 0 then (if w.val < 10 then 1000 * t.val + 200 * (w.val % 5) else 0) else 0 := by decide +kernel

theorem off0_zero (w : Fin cfg0.W) (hw : ¬w.val < 10) (t : Fin cfg0.N) :
    (fun a => (cfg0.win w).index t a * (cfg0.win w).size a) = fun _ => 0 :=
  funext fun a => (off0 w t a).trans (by rw [if_neg hw, ite_self])

/-- The offsets of a block of whole rows that starts at row b. -/
abbrev At (o : Fin 2 → ℕ) (b : ℕ) : Prop := ∀ a, o a = if a.val = 0 then b else 0

/-- In such a block, entry (k, j) is the array's entry (b + k, j). -/
theorem slab_emb {N C R : ℕ} (off : Fin 2 → ℕ) (inb : ∀ a, off a + ![R, C] a ≤ ![N, C] a) (b : ℕ)
    (hoff : At off b) (k : Fin R) (j : Fin C) (h : b + k.val < N) :
    (Rect.unit (s := ⟨2, ![N, C]⟩) off ![R, C] inb).emb (ix2 k j) = ix2 ⟨b + k.val, h⟩ j :=
  funext fun a => Fin.ext (by
    rw [Rect.emb_apply]; show off a + 1 * _ = _; rw [hoff a, Nat.one_mul]
    match a with
    | ⟨0, _⟩ => rfl
    | ⟨1, _⟩ => exact Nat.zero_add _)

/-- The i-th term xa(i, r) · H(i, m) of the sum over rows that defines ZK at (r, m); 0 for i ≥ 10000. -/
def term (i : ℕ) : EReal :=
  if h : i < 10000 then Cert.Spec.xaK (xF V c) (HF V c) (WF V c) (bF V c) ⟨i, h⟩ r * HF V c ⟨i, h⟩ m else 0

def part (N : ℕ) : EReal := ∑ i ∈ Finset.range N, term V c r m i

theorem ZK_eq_part : Cert.Spec.ZK (xF V c) (HF V c) (WF V c) (bF V c) r m = part V c r m 10000 := by
  unfold Cert.Spec.ZK part
  rw [← Fin.sum_univ_eq_sum_range (term V c r m) 10000]
  refine Finset.sum_congr rfl fun n _ => ?_
  unfold term
  rw [dif_pos n.isLt]

/-- Over the sum of the rows below b, a block whose rows are rows b … b + 199 of the arrays adds up to the sum of the rows below b + 200. -/
theorem contrib_eq (x : Vec Ideal S200x128 .f32) (w : Vec Ideal S128x128 .f32) (bv : Vec Ideal S1x128 .f32)
    (h : Vec Ideal S200x5000 .f32) (b : ℕ) (hb : b + 200 ≤ 10000)
    (hx : ∀ k j hk, x (ix2 k j) = xF V c ⟨b + k.val, hk⟩ j)
    (hh : ∀ k j hk, h (ix2 k j) = HF V c ⟨b + k.val, hk⟩ j)
    (hw : w = V c main_arg2) (hbv : bv = V c main_call0_v0) :
    part V c r m b + contrib x w bv h r m = part V c r m (b + 200) := by
  subst hw hbv
  unfold contrib part
  rw [Finset.sum_range_add, ← Fin.sum_univ_eq_sum_range (fun k => term V c r m (b + k)) 200]
  refine congrArg _ (Finset.sum_congr rfl fun k _ => ?_)
  have hk : b + k.val < 10000 := by have := k.isLt; omega
  unfold term
  rw [dif_pos hk, Cert.Spec.xaK_eq_xaRow]
  simp only [hx _ _ hk, hh _ _ hk]
  rfl

/-- Blocks of x and of H that start at row b, with the blocks of W and of the bias row, which are the arrays, add rows b … b + 199. -/
theorem step (t : Fin cfg0.N) ⦃b : ℕ⦄ ⦃z : EReal⦄ (hz : z = part V c r m b) {ox oh : Fin 2 → ℕ}
    {ix : ∀ a, ox a + S200x128.size a ≤ S10000x128.size a} {ih : ∀ a, oh a + S200x5000.size a ≤ S10000x5000.size a}
    (hox : At ox b) (hoh : At oh b) :
    z + contrib (((Memref.whole main_arg0).slice (Rect.unit ox S200x128.size ix) fun _ => rfl).view.read (Elt Ideal) (V c main_arg0))
      (iblk0 V c 10 t) (iblk0 V c 11 t)
      (((Memref.whole main_arg1).slice (Rect.unit oh S200x5000.size ih) fun _ => rfl).view.read (Elt Ideal) (V c main_arg1)) r m
      = part V c r m (b + 200) :=
  hz ▸ contrib_eq V c r m _ _ _ _ _ (by have := ix 0; rw [hox 0] at this; exact this)
    (fun k j hk => congrArg (V c main_arg0) (slab_emb ox ix _ hox k j hk))
    (fun k j hk => congrArg (V c main_arg1) (slab_emb oh ih _ hoh k j hk))
    (Memref.read_access_unit_zero (Elt Ideal) main_arg2 (off0_zero 10 (by decide) t) _ _)
    (Memref.read_access_unit_zero (Elt Ideal) main_call0_v0 (off0_zero 11 (by decide) t) _ _)

/-- Over the sum of the rows before point t's, the five blocks' contributions give the sum of the rows up to its last. -/
theorem point_sum (t : Fin cfg0.N) (z : EReal) (hz : z = part V c r m (1000 * t.val)) :
    let w := iblk0 V c 10 t; let b := iblk0 V c 11 t
    ((((z + contrib (iblk0 V c 0 t) w b (iblk0 V c 5 t) r m) + contrib (iblk0 V c 1 t) w b (iblk0 V c 6 t) r m)
      + contrib (iblk0 V c 2 t) w b (iblk0 V c 7 t) r m) + contrib (iblk0 V c 3 t) w b (iblk0 V c 8 t) r m)
      + contrib (iblk0 V c 4 t) w b (iblk0 V c 9 t) r m = part V c r m (1000 * (t.val + 1)) :=
  have S := step V c r m t
  S (S (S (S (S hz (off0 0 t) (off0 5 t)) (off0 1 t) (off0 6 t)) (off0 2 t) (off0 7 t)) (off0 3 t) (off0 8 t)) (off0 4 t) (off0 9 t)

/-- By induction on the grid point: after point n, entry (r, m) is the sum of the terms of the first 1000 (n + 1) rows. -/
theorem outsAt_val : ∀ (n : ℕ) (hn : n < cfg0.N), outsAt0 V c n hn (ix2 r m) = part V c r m (1000 * (n + 1))
  | 0, hn => by
    rw [outsAt0_A V c ⟨0, hn⟩ rfl, out0_A_apply]
    exact point_sum V c r m ⟨0, hn⟩ 0 (Finset.sum_range_zero _).symm
  | n + 1, hn => by
    rw [outsAt0_B V c ⟨n + 1, hn⟩ (Nat.succ_ne_zero n), out0_B_apply]
    exact point_sum V c r m ⟨n + 1, hn⟩ _ (outsAt_val n (Nat.lt_of_succ_lt hn))

/-- The result array ends holding the values accumulated up to the last grid point. -/
theorem arr_final : (dat0 V c).arrAt 12 cfg0.N = outsAt0 V c 9 t0_9.isLt :=
  (dat0 V c).arrAt_eq_of_cover 12 _ (fun t hf => by
    obtain rfl : t = t0_9 := Fin.ext ((Nat.mod_eq_of_lt (lt_of_lt_of_eq t.isLt N_0)).symm.trans ((flush0_12 t).mp hf))
    exact (congrArg _ (after0_12 V c t0_9)).trans (Memref.read_access_unit_zero (Elt Ideal) main_call0_v3 (off0_zero 12 (by decide) t0_9) _ _).symm)
    fun i => ⟨t0_9, (flush0_12 t0_9).mpr rfl,
      (congrArg (i ∈ ·) (View.set_slice_whole _ _)).mpr (View.mem_set_unit_zero (off0_zero 12 (by decide) t0_9) _ i)⟩

end R0

theorem zT_val (c : Dev nD) (r : Fin 129) (m : Fin 5000) :
    ((dat0 (F := Ideal) V c).arrAt 12 cfg0.N : Vec Ideal S129x5000 .f32) (ix2 r m)
      = Cert.Spec.ZK (R0.xF V c) (R0.HF V c) (R0.WF V c) (R0.bF V c) r m := by
  rw [R0.arr_final V c, R0.ZK_eq_part]
  exact R0.outsAt_val V c r m 9 t0_9.isLt

end Cert.KernelIdeal.Val

end
-- ==== Proof.Pay1.lean ====
import proofs.«111596_g59545426591934_cont_9to1_m_1243_24_alg».proof.Proof.Gen.KernelIdeal.Skeleton
import proofs.«111596_g59545426591934_cont_9to1_m_1243_24_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay1

open Idealize.ShloMosaic Idealize.ShloMosaic.ValueIdx Cert.KernelIdeal Cert.KernelIdeal.Gen

/-- Entry (k, d) of h · zsᵀ: the sum over the shared axis of row k of h times row d of zs. -/
theorem mm_apply (h : FVec Ideal S200x5000 .f32) (zs : FVec Ideal S128x5000 .f32) (k : Fin 200) (d : Fin 128) :
    matmul dot_S200x5000_S128x5000_S200x128_1_1_0_0_n_n none h zs (constant (F := Ideal) S200x128 .f32 0x00000000#32) (ix2 k d)
      = ∑ m : Fin 5000, h (ix2 k m) * zs (ix2 d m) := by
  simp only [matmul]
  rw [Ideal.matmul_constant_zero_apply, ← Equiv.sum_comp (contrEquiv1 _ 5000 rfl rfl).symm]
  refine Finset.sum_congr rfl fun m _ => ?_
  have hk := contrEquiv1_symm_val dot_S200x5000_S128x5000_S200x128_1_1_0_0_n_n 5000 rfl rfl m
  congr 2 <;> funext a <;> apply Fin.ext <;> fin_cases a
  · rfl
  · exact (DotDims.lhsIdx_val_of_single _ rfl _ _).trans hk
  · rfl
  · exact (DotDims.rhsIdx_val_of_single _ rfl _ _).trans hk

/-- Adding up an a × b block along its second axis gives, at k, the sum of row k. -/
theorem rowsum_apply {a b : ℕ} (v : FVec Ideal ⟨2, ![a, b]⟩ .f32) (hr : (⟨2, ![a, b]⟩ : Shape).Reduces [1] ⟨1, ![a]⟩)
    (hφ : FTy.f32 = FTy.f32 ∨ FTy.f32 = FTy.bf16) (hacc : (0x00000000#32 : BitVec 32) = 0x00000000#32) (k : Fin a) :
    multiReduction (F := Ideal) .add (no_index [1]) ⟨1, ![a]⟩ v 0x00000000#32 hr hφ hacc (ix1 k) = ∑ m : Fin b, v (ix2 k m) :=
  (Ideal.multiReduction_add_single v _ hr hφ hacc (ix1 k)).trans
    (Finset.sum_congr rfl fun m _ => congrArg v (funext fun x => by fin_cases x <;> rfl))

/-- Reshaping a length-a vector to a × 1 keeps entry i at (i, 0). -/
theorem keep_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- Spreading an a × 1 column over b columns repeats entry p along row p. -/
theorem bcol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ => show p.val = if a = 1 then 0 else p.val; split <;> omega
  | ⟨1, _⟩ => rfl

theorem rsqrt_apply {s : Shape} {φ : FTy} (a : FVec Ideal s φ) (i : s.Idx) : rsqrt a i = Ideal.rsqrt (a i) := rfl

theorem scalar_ofBits (φ : FTy) (b : BitVec φ.bits) : Scalar.ofBits (F := Ideal) φ b = Ideal.ofBits φ b := rfl

/-- Choosing on x > y is `if y < x`. -/
theorem select_ogt {φ : FTy} (x y : Ideal φ) (a b : EReal) :
    Scalar.select (FloatOps.cmpf .ogt x y) a b = if y < x then a else b := by
  show (if BitVec.ofBool (decide (y < x)) = 1#1 then a else b) = _
  by_cases h : y < x <;> simp [h]

/-- Entrywise: zT (d, m) times 1 / de m where de m is positive, times 0 elsewhere. -/
theorem k1_pay2_apply (de : Vec Ideal S1x5000 .f32) (zT : Vec Ideal S128x5000 .f32) (d : Fin 128) (m : Fin 5000) :
    k1_pay2 (F := Ideal) de zT (ix2 d m)
      = zT (ix2 d m) * (if 0 < de (ix2 (0 : Fin 1) m) then Ideal.div Cert.Spec.c1 (de (ix2 (0 : Fin 1) m)) else 0) := by
  unfold k1_pay2 Cert.Spec.c1
  simp only [shapeCast_self, mulf_apply, broadcastTo_1b_ab_apply, select_apply, cmpf_apply, divf_apply, broadcast_apply,
    scalar_ofBits, Ideal.ofBits_zero_f32, select_ogt]

/-- Entrywise maximum with 0. -/
theorem k1_pay1_apply (v : FVec Ideal S200x128 .f32) (k : Fin 200) (d : Fin 128) :
    k1_pay1 (F := Ideal) v (ix2 k d) = max (v (ix2 k d)) 0 := by
  unfold k1_pay1
  simp only [maximumf_apply, broadcast_apply, scalar_ofBits, Ideal.ofBits_zero_f32]

/-- Entry (k, d) is `rowYn` of row k of h: every operation of the term is read at its index and the sums are named. -/
theorem k1_pay3_apply (h : Vec Ideal S200x5000 .f32) (zs : Vec Ideal S128x5000 .f32) (g be : Vec Ideal S1x128 .f32)
    (k : Fin 200) (d : Fin 128) :
    k1_pay3 (F := Ideal) h zs g be (ix2 k d)
      = Cert.Spec.rowYn (fun m => h (ix2 k m)) (fun d' m => zs (ix2 d' m)) (fun d' => g (ix2 (0 : Fin 1) d'))
          (fun d' => be (ix2 (0 : Fin 1) d')) d := by
  unfold k1_pay3 Cert.Spec.rowYn Cert.Spec.c128 Cert.Spec.ceps
  simp only [shapeCast_self, addf_apply, mulf_apply, subf_apply, divf_apply, rsqrt_apply, broadcastTo_1b_ab_apply, bcol_apply,
    keep_apply, rowsum_apply, mm_apply, select_apply, cmpf_apply, broadcast_apply,
    scalar_ofBits, Ideal.ofBits_zero_f32, select_ogt]

end Cert.KernelIdeal.Pay1

end
-- ==== Proof.Val1.lean ====
import proofs.«111596_g59545426591934_cont_9to1_m_1243_24_alg».proof.Proof.KI.Dat1
import proofs.«111596_g59545426591934_cont_9to1_m_1243_24_alg».proof.Proof.Pay1
import proofs.«111596_g59545426591934_cont_9to1_m_1243_24_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Fr

namespace R1

section Runs

variable {F : FTy → Type} [FloatOps F]

theorem hz2 : (![0, 0] : Fin 2 → Nat) = fun _ => 0 := funext fun a => by fin_cases a <;> rfl

/-- Five 200-row bands of a 1000 × 128 block, from rows 800, 600, 400, 200, 0. -/
abbrev bands (w4 w3 w2 w1 w0 : Vec F S200x128 .f32) : List (View.Piece (Elt F) S1000x128 .f32) :=
  [⟨Rect.unit ![800, 0] ![200, 128] inb_S1000x128_S200x128_800_0, w4⟩,
   ⟨Rect.unit ![600, 0] ![200, 128] inb_S1000x128_S200x128_600_0, w3⟩,
   ⟨Rect.unit ![400, 0] ![200, 128] inb_S1000x128_S200x128_400_0, w2⟩,
   ⟨Rect.unit ![200, 0] ![200, 128] inb_S1000x128_S200x128_200_0, w1⟩,
   ⟨Rect.unit ![0, 0] ![200, 128] inb_S1000x128_S200x128_0_0, w0⟩]

/-- zT's first 128 rows, each entry divided by row 128's entry of its column where that is positive and zeroed elsewhere. -/
abbrev scrOf (zT : Vec F S129x5000 .f32) : Vec F S128x5000 .f32 :=
  k1_pay2 (View.ld zT (Rect.unit (s := S129x5000) ![128, 0] S1x5000.size inb_S129x5000_S1x5000_128_0))
    (View.ld zT (Rect.unit (s := S129x5000) ![0, 0] S128x5000.size inb_S129x5000_S128x5000_0_0))

/-- The 1000 × 128 block whose band from row 200 s is the normalised rows of h_s against zs, γ, β, cut at zero. -/
abbrev blockOf (h0 h1 h2 h3 h4 : Vec F S200x5000 .f32) (zs : Vec F S128x5000 .f32) (g be : Vec F S1x128 .f32) :
    Vec F S1000x128 .f32 :=
  View.canon (bands (k1_pay1 (k1_pay11 h4 zs g be)) (k1_pay10 (k1_pay9 h3 zs g be)) (k1_pay8 (k1_pay7 h2 zs g be))
    (k1_pay6 (k1_pay5 h1 zs g be)) (k1_pay4 (k1_pay3 h0 zs g be)))

variable (c : Dev nD) (i : grid1.Coords) (arg1 arg2 arg3 arg4 arg5 : Memref sig .tc .vmem S200x5000 .f32)
  (harg1 : arg1.IsWhole) (harg2 : arg2.IsWhole) (harg3 : arg3.IsWhole) (harg4 : arg4.IsWhole) (harg5 : arg5.IsWhole)
  (arg6 : Memref sig .tc .vmem S129x5000 .f32) (harg6 : arg6.IsWhole) (arg7 arg8 : Memref sig .tc .vmem S1x128 .f32)
  (harg7 : arg7.IsWhole) (harg8 : arg8.IsWhole) (arg9 : Memref sig .tc .vmem S1000x128 .f32) (harg9 : arg9.IsWhole)
  (arg10 : Memref sig .tc .vmem S128x5000 .f32) (harg10 : arg10.IsWhole)
  (h0 h1 h2 h3 h4 : Vec F S200x5000 .f32) (zT : Vec F S129x5000 .f32) (g be : Vec F S1x128 .f32)

theorem sout_A_eq (hc0 : cond1 i) : sout1_A c i arg1 harg1 arg2 harg2 arg3 harg3 arg4 harg4 arg5 harg5 arg6 harg6 arg7 harg7 arg8 harg8 arg9 harg9 arg10 harg10 hc0 h0 h1 h2 h3 h4 zT g be = scrOf zT := by
  unfold sout1_A
  rw [View.read_writes_eq_canon _ _ _ (fun y => scover1_A (y := y) ..)]
  unfold kernelRun1_A
  dsimp only
  sl_unfold_words
  rw [View.canon_unit_zero hz2]
  simp only [View.readAt_eq_ld, harg6.read_unread]

theorem out_A_eq (hc0 : cond1 i) : out1_A c i arg1 harg1 arg2 harg2 arg3 harg3 arg4 harg4 arg5 harg5 arg6 harg6 arg7 harg7 arg8 harg8 arg9 harg9 arg10 harg10 hc0 h0 h1 h2 h3 h4 zT g be = blockOf h0 h1 h2 h3 h4 (scrOf zT) g be := by
  unfold out1_A
  rw [View.read_writes_eq_canon _ _ _ (fun y => cover1_A (y := y) ..)]
  unfold kernelRun1_A
  dsimp only
  sl_unfold_words
  simp only [View.readAt_eq_ld, harg1.read_unread, harg2.read_unread, harg3.read_unread, harg4.read_unread, harg5.read_unread,
    harg6.read_unread, harg7.read_unread, harg8.read_unread, View.ld_unit_zero (S := S200x5000) hz2,
    View.ld_unit_zero (S := S1x128) hz2, View.readCov_unit_zero (S := S128x5000) _ hz2]

theorem out_B_eq (hc0 : ¬cond1 i) (zs : Vec F S128x5000 .f32) : out1_B c i arg1 harg1 arg2 harg2 arg3 harg3 arg4 harg4 arg5 harg5 arg6 harg6 arg7 harg7 arg8 harg8 arg9 harg9 arg10 harg10 hc0 h0 h1 h2 h3 h4 zT g be zs = blockOf h0 h1 h2 h3 h4 zs g be := by
  unfold out1_B
  rw [View.read_writes_eq_canon _ _ _ (fun y => cover1_B (y := y) ..)]
  unfold kernelRun1_B
  dsimp only
  sl_unfold_words
  simp only [View.readAt_eq_ld, harg1.read_unread, harg2.read_unread, harg3.read_unread, harg4.read_unread, harg5.read_unread,
    harg7.read_unread, harg8.read_unread, harg10.read_unread, View.ld_unit_zero (S := S200x5000) hz2,
    View.ld_unit_zero (S := S1x128) hz2, View.ld_unit_zero (S := S128x5000) hz2]

end Runs

/-- The block indices at point t: 5 t + s of H for s = 0..4, the whole of the three small arrays, and t of the result. -/
theorem idx_raw : ∀ t : Fin cfg1.N,
    (win1_0.index t (0 : Fin 2) = 5 * t.val + 0 ∧ win1_0.index t (1 : Fin 2) = 0)
    ∧ (win1_1.index t (0 : Fin 2) = 5 * t.val + 1 ∧ win1_1.index t (1 : Fin 2) = 0)
    ∧ (win1_2.index t (0 : Fin 2) = 5 * t.val + 2 ∧ win1_2.index t (1 : Fin 2) = 0)
    ∧ (win1_3.index t (0 : Fin 2) = 5 * t.val + 3 ∧ win1_3.index t (1 : Fin 2) = 0)
    ∧ (win1_4.index t (0 : Fin 2) = 5 * t.val + 4 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

section Blocks

variable {F : FTy → Type} [FloatOps F]
variable (V : (c : Dev nD) → (b : Ref sig .tc) → Buf (Elt F) ((c : Thread nD τ).loc b))

/-- A block with block index 0 on both axes that has the array's own sizes reads as the array. -/
theorem whole_of {a b : ℕ} {α : Type} (A : (⟨2, ![a, b]⟩ : Shape).Idx → α) {i0 i1 : ℕ} (e0 : i0 = 0) (e1 : i1 = 0)
    (y x : (⟨2, ![a, b]⟩ : Shape).Idx) (h0 : (x 0).val = i0 * a + 1 * (y 0).val) (h1 : (x 1).val = i1 * b + 1 * (y 1).val) :
    A x = A y := by
  subst e0 e1
  exact congrArg A (Shape.idx_ext₂ (by omega) (by omega))

theorem zblk (c : Dev nD) (t : Fin cfg1.N) : (iblk1 V c 5 t : Vec F S129x5000 .f32) = V c main_call0_v3 :=
  funext fun y => (View.read_apply _ _).trans
    (whole_of (V c main_call0_v3) (idx_raw t).2.2.2.2.2.1.1 (idx_raw t).2.2.2.2.2.1.2 y _ (by rfl) (by rfl))

theorem gblk (c : Dev nD) (t : Fin cfg1.N) : (iblk1 V c 6 t : Vec F S1x128 .f32) = V c main_call0_v1 :=
  funext fun y => (View.read_apply _ _).trans
    (whole_of (V c main_call0_v1) (idx_raw t).2.2.2.2.2.2.1.1 (idx_raw t).2.2.2.2.2.2.1.2 y _ (by rfl) (by rfl))

theorem bblk (c : Dev nD) (t : Fin cfg1.N) : (iblk1 V c 7 t : Vec F S1x128 .f32) = V c main_call0_v2 :=
  funext fun y => (View.read_apply _ _).trans
    (whole_of (V c main_call0_v2) (idx_raw t).2.2.2.2.2.2.2.1.1 (idx_raw t).2.2.2.2.2.2.2.1.2 y _ (by rfl) (by rfl))

end Blocks

/-- Entry (d, m) of `scrOf zT`, written out. -/
theorem scrOf_apply (zT : Vec Ideal S129x5000 .f32) (d : Fin 128) (m : Fin 5000) :
    scrOf (F := Ideal) zT (ix2 d m)
      = zT (ix2 (⟨d.val, by omega⟩ : Fin 129) m)
        * (if 0 < zT (ix2 (⟨128, by decide⟩ : Fin 129) m) then Ideal.div Cert.Spec.c1 (zT (ix2 (⟨128, by decide⟩ : Fin 129) m)) else 0) :=
  (Pay1.k1_pay2_apply _ _ d m).trans (congrArg₂ (fun a b => a * if 0 < b then Ideal.div Cert.Spec.c1 b else 0)
    (by exact congrArg zT (Shape.idx_ext₂ (show 0 + 1 * d.val = d.val by omega) (show 0 + 1 * m.val = m.val by omega)))
    (by exact congrArg zT (Shape.idx_ext₂ (show 128 + 1 * 0 = 128 from rfl) (show 0 + 1 * m.val = m.val by omega))))

/-- The block whose row r is the normalised row of `Hr r` against zs, γ, β, cut at zero. -/
abbrev rowG (Hr : Fin 1000 → Fin 5000 → EReal) (zs : Vec Ideal S128x5000 .f32) (g be : Vec Ideal S1x128 .f32) :
    Vec Ideal S1000x128 .f32 :=
  fun y => max (Cert.Spec.rowYn (Hr (y 0)) (fun d m => zs (ix2 d m)) (fun d => g (ix2 (0 : Fin 1) d))
    (fun d => be (ix2 (0 : Fin 1) d)) (y 1)) 0

section Arrays

variable (V : (c : Dev nD) → (b : Ref sig .tc) → Buf (Elt Ideal) ((c : Thread nD τ).loc b))

abbrev HF (c : Dev nD) : Fin 10000 → Fin 5000 → EReal := fun n m => (V c main_arg1 : Vec Ideal S10000x5000 .f32) (ix2 n m)
abbrev zF (c : Dev nD) : Fin 129 → Fin 5000 → EReal := fun r m => (V c main_call0_v3 : Vec Ideal S129x5000 .f32) (ix2 r m)
abbrev gF (c : Dev nD) : Fin 128 → EReal := fun d => (V c main_call0_v1 : Vec Ideal S1x128 .f32) (ix2 (0 : Fin 1) d)
abbrev beF (c : Dev nD) : Fin 128 → EReal := fun d => (V c main_call0_v2 : Vec Ideal S1x128 .f32) (ix2 (0 : Fin 1) d)
abbrev zsF (c : Dev nD) : Fin 128 → Fin 5000 → EReal := fun d m =>
  zF V c ⟨d.val, by omega⟩ m * (if 0 < zF V c ⟨128, by decide⟩ m then Ideal.div Cert.Spec.c1 (zF V c ⟨128, by decide⟩ m) else 0)

/-- Row r of the thousand rows of H that belong to point t. -/
abbrev Hrow (c : Dev nD) (t : Fin cfg1.N) : Fin 1000 → Fin 5000 → EReal := fun r =>
  HF V c ⟨1000 * t.val + r.val, by have hN : cfg1.N = 10 := N_1; have := t.isLt; omega⟩

/-- If h is block 5 t + s of H, its normalised rows cut at zero are the band of `rowG` from row 200 s. -/
theorem band_val (c : Dev nD) (t : Fin cfg1.N) {s i0 i1 : ℕ} (e0 : i0 = 5 * t.val + s) (e1 : i1 = 0) (h : Vec Ideal S200x5000 .f32)
    (eh : ∀ k m, ∃ x : S10000x5000.Idx, h (ix2 k m) = (V c main_arg1 : Vec Ideal S10000x5000 .f32) x
      ∧ (x 0).val = i0 * 200 + 1 * k.val ∧ (x 1).val = i1 * 5000 + 1 * m.val)
    (inb : ∀ a, (![200 * s, 0] : Fin 2 → Nat) a + (![200, 128] : Fin 2 → Nat) a ≤ S1000x128.size a)
    (zs : Vec Ideal S128x5000 .f32) (g be : Vec Ideal S1x128 .f32) (x : S200x128.Idx) :
    k1_pay1 (k1_pay3 h zs g be) x
      = rowG (Hrow V c t) zs g be ((Rect.unit (s := S1000x128) ![200 * s, 0] ![200, 128] inb).emb x) := by
  obtain ⟨k, d, rfl⟩ : ∃ k d, x = ix2 k d := ⟨x 0, x 1, eq_ix2 x⟩
  refine (Pay1.k1_pay1_apply _ k d).trans (congrArg (max · 0) ((Pay1.k1_pay3_apply h zs g be k d).trans ?_))
  refine congrArg₂ (fun hr dd => Cert.Spec.rowYn hr _ _ _ dd) (funext fun m => ?_) (Fin.ext (show d.val = 0 + 1 * d.val by omega))
  obtain ⟨x, hx, h0, h1⟩ := eh k m
  exact hx.trans (congrArg (V c main_arg1) (Shape.idx_ext₂
    (show (x 0).val = 1000 * t.val + (200 * s + 1 * k.val) by omega) (show (x 1).val = m.val by omega)))

/-- At every point the block is assembled from H's five row blocks, the scaled array, γ and β. -/
theorem outsAt1_eq (c : Dev nD) (t : Fin cfg1.N) :
    outsAt1 (F := Ideal) V c t = blockOf (iblk1 V c 0 t) (iblk1 V c 1 t) (iblk1 V c 2 t) (iblk1 V c 3 t) (iblk1 V c 4 t)
      (scrOf (V c main_call0_v3)) (V c main_call0_v1) (V c main_call0_v2) := by
  by_cases h0 : t.val = 0
  · rw [outsAt1_A V c t h0, out_A_eq, zblk, gblk, bblk]
  · rw [outsAt1_B V c t h0, out_B_eq, sAt1, sout_A_eq, zblk, gblk, bblk]

/-- The block of point t at y: the five bands agree with `rowG` and cover the block; row y₀ of it is row 1000 t + y₀ of H. -/
theorem outsAt1_apply (c : Dev nD) (t : Fin cfg1.N) (y : S1000x128.Idx) (n : Fin 10000) (hn : n.val = 1000 * t.val + (y 0).val) :
    (outsAt1 (F := Ideal) V c t : Vec Ideal S1000x128 .f32) y
      = max (Cert.Spec.rowYn (HF V c n) (zsF V c) (gF V c) (beF V c) (y 1)) 0 := by
  rw [outsAt1_eq]
  refine (View.canon_apply_of_pieces (rowG (Hrow V c t) (scrOf (V c main_call0_v3)) (V c main_call0_v1) (V c main_call0_v2)) _
    (fun p hp x => ?_) y (View.cover_of_tiledL (s := S1000x128) _ S200x128.size (by sl_kernel_rfl) y)).trans ?_
  · simp only [List.mem_cons, List.not_mem_nil, or_false] at hp
    rcases hp with rfl | rfl | rfl | rfl | rfl
    exacts [band_val V c t (idx_raw t).2.2.2.2.1.1 (idx_raw t).2.2.2.2.1.2 (iblk1 V c 4 t)
      (fun k m => ⟨_, View.read_apply _ _, rfl, rfl⟩) inb_S1000x128_S200x128_800_0 _ _ _ x,
      band_val V c t (idx_raw t).2.2.2.1.1 (idx_raw t).2.2.2.1.2 (iblk1 V c 3 t)
      (fun k m => ⟨_, View.read_apply _ _, rfl, rfl⟩) inb_S1000x128_S200x128_600_0 _ _ _ x,
      band_val V c t (idx_raw t).2.2.1.1 (idx_raw t).2.2.1.2 (iblk1 V c 2 t)
      (fun k m => ⟨_, View.read_apply _ _, rfl, rfl⟩) inb_S1000x128_S200x128_400_0 _ _ _ x,
      band_val V c t (idx_raw t).2.1.1 (idx_raw t).2.1.2 (iblk1 V c 1 t)
      (fun k m => ⟨_, View.read_apply _ _, rfl, rfl⟩) inb_S1000x128_S200x128_200_0 _ _ _ x,
      band_val V c t (idx_raw t).1.1 (idx_raw t).1.2 (iblk1 V c 0 t)
      (fun k m => ⟨_, View.read_apply _ _, rfl, rfl⟩) inb_S1000x128_S200x128_0_0 _ _ _ x]
  · exact congrArg₂ (fun hr z => max (Cert.Spec.rowYn hr z (gF V c) (beF V c) (y 1)) 0)
      (congrArg (HF V c) (Fin.ext hn.symm)) (funext fun d' => funext fun m => scrOf_apply _ d' m)

/-- The function the result array equals: entry (n, d) is the normalised row n of H, cut at zero. -/
abbrev outF (c : Dev nD) : Vec Ideal S10000x128 .f32 :=
  fun i => max (Cert.Spec.rowYn (HF V c (i 0)) (zsF V c) (gF V c) (beF V c) (i 1)) 0

/-- Block t of `outF` is the block of point t: both are rows 1000 t … 1000 t + 999 read entry by entry. -/
theorem flushed_eq (c : Dev nD) (t : Fin cfg1.N) :
    (dat1 (F := Ideal) V c).flushed 8 t = ((cfg1.win 8).blk t).view.read (Elt Ideal) (outF V c) := by
  show (cfg1.win 8).cut (grid1.coords t) ((dat1 (F := Ideal) V c).after 8 t) = _
  rw [after1_8]
  obtain ⟨-, -, -, -, -, -, -, -, e0, e1⟩ := idx_raw t
  have hN : cfg1.N = 10 := N_1
  have ht := t.isLt
  funext j
  have hj0 : (j 0).val < 1000 := (j 0).isLt
  have hj1 : (j 1).val < 128 := (j 1).isLt
  have hemb : ((cfg1.win 8).blk t).view.emb j
      = ix2 (⟨1000 * t.val + (j 0).val, by omega⟩ : Fin 10000) (⟨(j 1).val, hj1⟩ : Fin 128) :=
    Shape.idx_ext₂ (show win1_8.index t (0 : Fin 2) * 1000 + 1 * (j 0).val = 1000 * t.val + (j 0).val by rw [e0]; omega)
      (show win1_8.index t (1 : Fin 2) * 128 + 1 * (j 1).val = (j 1).val by rw [e1]; omega)
  rw [View.read_apply, hemb]
  exact outsAt1_apply V c t ((cfg1.win 8).xinj (grid1.coords t) j) ⟨1000 * t.val + (j 0).val, by omega⟩ rfl

/-- Row n of the result array lies in block n / 1000. -/
theorem cover (i : S10000x128.Idx) :
    ∃ t : Fin cfg1.N, (cfg1.win 8).flush t = true ∧ i ∈ ((cfg1.win 8).blk t).view.set := by
  have hN : cfg1.N = 10 := N_1
  have hi0 : (i 0).val < 10000 := (i 0).isLt
  have hi1 : (i 1).val < 128 := (i 1).isLt
  obtain ⟨t, ht⟩ : ∃ t : Fin cfg1.N, t.val = (i 0).val / 1000 := ⟨⟨_, by omega⟩, rfl⟩
  obtain ⟨-, -, -, -, -, -, -, -, e0, e1⟩ := idx_raw t
  refine ⟨t, flush1_8 t, ?_⟩
  show i ∈ ((View.whole main_v0).slice (win1_8.rect t)).set
  rw [View.set_slice_whole, Rect.mem_set_unit]
  intro a
  match a with
  | ⟨0, _⟩ =>
    show win1_8.index t (0 : Fin 2) * 1000 ≤ (i 0).val ∧ (i 0).val < win1_8.index t (0 : Fin 2) * 1000 + 1000
    rw [e0]; omega
  | ⟨1, _⟩ =>
    show win1_8.index t (1 : Fin 2) * 128 ≤ (i 1).val ∧ (i 1).val < win1_8.index t (1 : Fin 2) * 128 + 128
    rw [e1]; omega

end Arrays

end R1

/-- The result array is `outF`: its ten blocks are those of `outF`, and they cover it. -/
theorem out_val (V : (c : Dev nD) → (b : Ref sig .tc) → Buf (Elt Ideal) ((c : Thread nD τ).loc b)) (c : Dev nD) (n : Fin 10000)
    (d : Fin 128) :
    ((dat1 (F := Ideal) V c).arrAt 8 cfg1.N : Vec Ideal S10000x128 .f32) (ix2 n d)
      = max (Cert.Spec.rowYn (R1.HF V c n) (R1.zsF V c) (R1.gF V c) (R1.beF V c) d) 0 :=
  congrFun ((dat1 (F := Ideal) V c).arrAt_eq_of_cover 8 (R1.outF V c) (fun t _ => R1.flushed_eq V c t) R1.cover) (ix2 n d)

end Cert.KernelIdeal.Val

end
-- ==== Proof.Bridge.lean ====
import proofs.«111596_g59545426591934_cont_9to1_m_1243_24_alg».proof.Proof.KI.Regions
import proofs.«111596_g59545426591934_cont_9to1_m_1243_24_alg».proof.Proof.Val0b
import proofs.«111596_g59545426591934_cont_9to1_m_1243_24_alg».proof.Proof.Val1
import Idealize.ShloMosaic.Lib.StableHlo.Run
import Idealize.ShloMosaic.Lib.ValueLayout

noncomputable section

namespace Cert.KernelIdeal.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

abbrev xM (c : Dev nD) : Fin 10000 → Fin 128 → EReal := fun n j => (m ((c : Thread nD τ).loc main_arg0) : S10000x128.Idx → EReal) (ix2 n j)
abbrev HM (c : Dev nD) : Fin 10000 → Fin 5000 → EReal := fun n k => (m ((c : Thread nD τ).loc main_arg1) : S10000x5000.Idx → EReal) (ix2 n k)
abbrev WM (c : Dev nD) : Fin 128 → Fin 128 → EReal := fun j d => (m ((c : Thread nD τ).loc main_arg2) : S128x128.Idx → EReal) (ix2 j d)
abbrev bM (c : Dev nD) : Fin 128 → EReal := fun d => (m ((c : Thread nD τ).loc main_arg3) : S128.Idx → EReal) (ix1 d)
abbrev gM (c : Dev nD) : Fin 128 → EReal := fun d => (m ((c : Thread nD τ).loc main_arg4) : S128.Idx → EReal) (ix1 d)
abbrev beM (c : Dev nD) : Fin 128 → EReal := fun d => (m ((c : Thread nD τ).loc main_arg5) : S128.Idx → EReal) (ix1 d)

theorem E1_arg0 (c : Dev nD) : Fr.E1 m c main_arg0 = m ((c : Thread nD τ).loc main_arg0) := V1_of m c main_arg0 (by decide)
theorem E1_arg1 (c : Dev nD) : Fr.E1 m c main_arg1 = m ((c : Thread nD τ).loc main_arg1) := V1_of m c main_arg1 (by decide)
theorem E1_arg2 (c : Dev nD) : Fr.E1 m c main_arg2 = m ((c : Thread nD τ).loc main_arg2) := V1_of m c main_arg2 (by decide)

theorem V1_v0_apply (c : Dev nD) (u : Fin 1) (d : Fin 128) :
    (V1 m c main_call0_v0 : S1x128.Idx → EReal) (ix2 u d) = (m ((c : Thread nD τ).loc main_arg3) : S128.Idx → EReal) (ix1 d) := by
  have e : (V1 m c main_call0_v0 : S1x128.Idx → EReal)
      = shapeCast S1x128 (m ((c : Thread nD τ).loc main_arg3) : S128.Idx → EReal) shapeCasts_S128_S1x128 := by
    dsimp only [V1, hostOps0]; after_results; rfl
  rw [e]
  exact shapeCast_a_1a_apply _ _ u d
theorem V1_v1_apply (c : Dev nD) (u : Fin 1) (d : Fin 128) :
    (V1 m c main_call0_v1 : S1x128.Idx → EReal) (ix2 u d) = (m ((c : Thread nD τ).loc main_arg4) : S128.Idx → EReal) (ix1 d) := by
  have e : (V1 m c main_call0_v1 : S1x128.Idx → EReal)
      = shapeCast S1x128 (m ((c : Thread nD τ).loc main_arg4) : S128.Idx → EReal) shapeCasts_S128_S1x128 := by
    dsimp only [V1, hostOps0]; after_results; rfl
  rw [e]
  exact shapeCast_a_1a_apply _ _ u d
theorem V1_v2_apply (c : Dev nD) (u : Fin 1) (d : Fin 128) :
    (V1 m c main_call0_v2 : S1x128.Idx → EReal) (ix2 u d) = (m ((c : Thread nD τ).loc main_arg5) : S128.Idx → EReal) (ix1 d) := by
  have e : (V1 m c main_call0_v2 : S1x128.Idx → EReal)
      = shapeCast S1x128 (m ((c : Thread nD τ).loc main_arg5) : S128.Idx → EReal) shapeCasts_S128_S1x128 := by
    dsimp only [V1, hostOps0]; after_results; rfl
  rw [e]
  exact shapeCast_a_1a_apply _ _ u d

theorem E2_arg1 (c : Dev nD) : Fr.E2 m c main_arg1 = m ((c : Thread nD τ).loc main_arg1) :=
  (Fr.W2_of_ne m c main_arg1 (by decide)).trans (V1_of m c main_arg1 (by decide))
theorem E2_v3 (c : Dev nD) : Fr.E2 m c main_call0_v3 = (Fr.dat0 (F := Ideal) (Fr.E1 m) c).arrAt 12 cfg0.N := Fr.W2_out m c
theorem E2_v1 (c : Dev nD) : Fr.E2 m c main_call0_v1 = V1 m c main_call0_v1 := Fr.W2_of_ne m c main_call0_v1 (by decide)
theorem E2_v2 (c : Dev nD) : Fr.E2 m c main_call0_v2 = V1 m c main_call0_v2 := Fr.W2_of_ne m c main_call0_v2 (by decide)

theorem R0_xF (c : Dev nD) : Val.R0.xF (Fr.E1 m) c = xM m c := by
  funext a j; show (Fr.E1 m c main_arg0 : S10000x128.Idx → EReal) (ix2 a j) = _; rw [E1_arg0]
theorem R0_HF (c : Dev nD) : Val.R0.HF (Fr.E1 m) c = HM m c := by
  funext a k; show (Fr.E1 m c main_arg1 : S10000x5000.Idx → EReal) (ix2 a k) = _; rw [E1_arg1]
theorem R0_WF (c : Dev nD) : Val.R0.WF (Fr.E1 m) c = WM m c := by
  funext a k; show (Fr.E1 m c main_arg2 : S128x128.Idx → EReal) (ix2 a k) = _; rw [E1_arg2]
theorem R0_bF (c : Dev nD) : Val.R0.bF (Fr.E1 m) c = bM m c := by
  funext d; exact V1_v0_apply m c 0 d

-- The first region's final array is the accumulated transposed product of the arguments.
theorem zF_eq (c : Dev nD) (r : Fin 129) (k : Fin 5000) :
    Val.R1.zF (Fr.E2 m) c r k = Cert.Spec.ZK (xM m c) (HM m c) (WM m c) (bM m c) r k := by
  show (Fr.E2 m c main_call0_v3 : S129x5000.Idx → EReal) (ix2 r k) = _
  rw [E2_v3]
  refine (Val.zT_val (Fr.E1 m) c r k).trans ?_
  rw [R0_xF, R0_HF, R0_WF, R0_bF]

theorem R1_HF (c : Dev nD) (n : Fin 10000) : Val.R1.HF (Fr.E2 m) c n = HM m c n := by
  funext k; show (Fr.E2 m c main_arg1 : S10000x5000.Idx → EReal) (ix2 n k) = _; rw [E2_arg1]
theorem R1_gF (c : Dev nD) : Val.R1.gF (Fr.E2 m) c = gM m c := by
  funext d; show (Fr.E2 m c main_call0_v1 : S1x128.Idx → EReal) (ix2 (0 : Fin 1) d) = _; rw [E2_v1]; exact V1_v1_apply m c 0 d
theorem R1_beF (c : Dev nD) : Val.R1.beF (Fr.E2 m) c = beM m c := by
  funext d; show (Fr.E2 m c main_call0_v2 : S1x128.Idx → EReal) (ix2 (0 : Fin 1) d) = _; rw [E2_v2]; exact V1_v2_apply m c 0 d
theorem R1_zsF (c : Dev nD) : Val.R1.zsF (Fr.E2 m) c = Cert.Spec.zsK (xM m c) (HM m c) (WM m c) (bM m c) := by
  funext d k
  show Val.R1.zF (Fr.E2 m) c ⟨d.val, _⟩ k * (if 0 < Val.R1.zF (Fr.E2 m) c ⟨128, _⟩ k then Ideal.div Cert.Spec.c1 (Val.R1.zF (Fr.E2 m) c ⟨128, _⟩ k) else 0) = _
  rw [zF_eq, zF_eq]
  rfl

-- The second region's final array, read at (n, d), is the two-pass form of the six argument arrays.
theorem kernel_val (c : Dev nD) (n : Fin 10000) (d : Fin 128) :
    ((Fr.dat1 (F := Ideal) (Fr.E2 m) c).arrAt 8 cfg1.N : S10000x128.Idx → EReal) (ix2 n d)
      = Cert.Spec.GK (xM m c) (HM m c) (WM m c) (bM m c) (gM m c) (beM m c) n d := by
  refine (Val.out_val (Fr.E2 m) c n d).trans ?_
  rw [R1_HF, R1_gF, R1_beF, R1_zsF]
  rfl

end Cert.KernelIdeal.Bridge

end
-- ==== Proof.lean ====
/-
  The kernel computes  relu (LayerNorm (Dv^(-1/2) H De^(-1) Hᵀ Dv^(-1/2) (x W + b)))  in two passes over H: the first
  accumulates the transposed product (Dv^(-1/2) (x W + b))ᵀ H together with the column sums De of H, the second multiplies
  the rows of H against it scaled by De^(-1), scales by Dv^(-1/2) and normalises. The reference applies the same operators
  in the textbook order. Over the extended reals the two orders agree by commutativity and associativity of + and · alone,
  with the one corner fact that under a positive argument the reciprocal square root is one over the square root.
-/
import proofs.«111596_g59545426591934_cont_9to1_m_1243_24_alg».proof.Defs
import proofs.«111596_g59545426591934_cont_9to1_m_1243_24_alg».proof.Proof.Gen.Kernel
import proofs.«111596_g59545426591934_cont_9to1_m_1243_24_alg».proof.Proof.Gen.KernelIdeal
import proofs.«111596_g59545426591934_cont_9to1_m_1243_24_alg».proof.Proof.Gen.ReferenceIdeal
import proofs.«111596_g59545426591934_cont_9to1_m_1243_24_alg».proof.Proof.Gen.Pre_finite_inputs
import proofs.«111596_g59545426591934_cont_9to1_m_1243_24_alg».proof.Proof.K.Regions
import proofs.«111596_g59545426591934_cont_9to1_m_1243_24_alg».proof.Proof.KI.Regions
import proofs.«111596_g59545426591934_cont_9to1_m_1243_24_alg».proof.Proof.RefRun
import proofs.«111596_g59545426591934_cont_9to1_m_1243_24_alg».proof.Proof.RefRead
import proofs.«111596_g59545426591934_cont_9to1_m_1243_24_alg».proof.Proof.Algebra
import proofs.«111596_g59545426591934_cont_9to1_m_1243_24_alg».proof.Proof.Bridge

noncomputable section

namespace Cert.Proof

open Idealize.ShloMosaic Idealize.ShloMosaic.ValueIdx Idealize.SL.Sem

-- The printed kernel runs to the end and leaves its arguments unchanged.
theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

-- The reference's frame is its run with the result dropped.
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

theorem preserves : Cert.preserves_Kernel_KernelIdeal := trivial

-- Index by index the kernel's result is the two-pass form and the reference's the textbook form of the same six arrays; the two forms agree.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Fr.dat1 (F := Ideal) (Cert.KernelIdeal.Fr.E2 m) c).arrAt 8 Cert.KernelIdeal.cfg1.N,
    Cert.KernelIdeal.Fr.run_val (F := Ideal) m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1, (hagree c).2.2.2.2.2]
  funext i
  obtain ⟨n, d, rfl⟩ : ∃ (n : Fin 10000) (d : Fin 128), i = ix2 n d := ⟨i 0, i 1, eq_ix2 i⟩
  refine (Cert.ReferenceIdeal.RefRead.refVal_eq _ _ _ _ _ _ n d).trans ?_
  refine (congrFun (congrFun (Cert.Spec.GK_eq_GR _ _ _ _ _ _) n) d).symm.trans ?_
  exact (Cert.KernelIdeal.Bridge.kernel_val m c n d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
